-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S1x512x1024 : Shape := ⟨3, ![1, 512, 1024]⟩
abbrev S1x2048x1024 : Shape := ⟨3, ![1, 2048, 1024]⟩
abbrev S512x1 : Shape := ⟨2, ![512, 1]⟩
abbrev S1x2048 : Shape := ⟨2, ![1, 2048]⟩
abbrev S2048x1024 : Shape := ⟨2, ![2048, 1024]⟩
abbrev S512x1024 : Shape := ⟨2, ![512, 1024]⟩
abbrev S512x512 : Shape := ⟨2, ![512, 512]⟩
abbrev S512 : Shape := ⟨1, ![512]⟩
abbrev S1x512 : Shape := ⟨2, ![1, 512]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x2048x1024, .f32⟩
  | .local _ .vmem, ⟨7, _⟩ => ⟨S512x1, .f32⟩
  | .local _ .vmem, ⟨8, _⟩ => ⟨S512x1, .f32⟩
  | .local _ .vmem, ⟨9, _⟩ => ⟨S1x2048, .f32⟩
  | .local _ .vmem, ⟨10, _⟩ => ⟨S1x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c512_i32 : BitVec 32 := 512#32
  let v58 : BitVec 32 := Scalar.muli arg2 c512_i32
  v58
def k0_off1 (i : grid0.Coords) : Fin 2 → Nat :=
  let c0_29 : Index := 0#32
  let arg2 : BitVec 32 := BitVec.ofNat 32 (i 2).val
  let c512_i32 : BitVec 32 := 512#32
  let v58 : BitVec 32 := Scalar.muli arg2 c512_i32
  let v59 : BitVec 32 := v58
  let v60 : Index := Scalar.indexCast v59
  ![0, v60.toNat]
def k0_off2 (i : grid0.Coords) : Fin 3 → Nat :=
  let c0_36 : Index := 0#32
  let arg2 : BitVec 32 := BitVec.ofNat 32 (i 2).val
  let c512_i32 : BitVec 32 := 512#32
  let v58 : BitVec 32 := Scalar.muli arg2 c512_i32
  let v59 : BitVec 32 := v58
  let v87 : Index := Scalar.indexCast v59
  let c0_37 : Index := 0#32
  ![0, v87.toNat, 0]
def k0_cond4 (i : grid0.Coords) : BitVec 1 :=
  let arg1 : BitVec 32 := BitVec.ofNat 32 (i 1).val
  let c3_i32_40 : BitVec 32 := 3#32
  let v97 : BitVec 1 := Scalar.cmpi .eq arg1 c3_i32_40
  let v98 : BitVec 32 := Scalar.extui v97
  let c0_i32_41 : BitVec 32 := 0#32
  let v99 : BitVec 1 := Scalar.cmpi .ne v98 c0_i32_41
  v99

def k0_off3 (i : grid0.Coords) : Fin 2 → Nat :=
  let c0_42 : Index := 0#32
  let arg2 : BitVec 32 := BitVec.ofNat 32 (i 2).val
  let c512_i32 : BitVec 32 := 512#32
  let v58 : BitVec 32 := Scalar.muli arg2 c512_i32
  let v59 : BitVec 32 := v58
  let v100 : Index := Scalar.indexCast v59
  ![0, v100.toNat]
def k0_off4 (i : grid0.Coords) : Fin 3 → Nat :=
  let c0_43 : Index := 0#32
  let arg2 : BitVec 32 := BitVec.ofNat 32 (i 2).val
  let c512_i32 : BitVec 32 := 512#32
  let v58 : BitVec 32 := Scalar.muli arg2 c512_i32
  let v59 : BitVec 32 := v58
  let v103 : Index := Scalar.indexCast v59
  let c0_44 : Index := 0#32
  ![0, v103.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  h_S1x512 : 0 < S1x512.numel
  reduces_S512x512_S512_2 : S512x512.Reduces [0] S512
  shapeCasts_S512_S1x512 : S512.ShapeCasts S1x512
  broadcasts_S1x512_S512x512 : S1x512.Broadcasts S512x512
  shapeCasts_S1x512_S1x512 : S1x512.ShapeCasts S1x512
  transposes_S1x512_p1_0_S512x1 : S1x512.Transposes [1, 0] S512x1
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  dot_S512x512_S512x1024_S512x1024_0_0_1_1_n_n_wf : DotDims.WF S512x512 S512x1024 S512x1024 [0] [0] [1] [1] [] []
  hrank0 : 0 < grid0.rank
  k0_mult1_dvd : ∀ i : grid0.Coords, 512 ∣ (k0_mult1 i).toNat
  k0_off1_inb : ∀ i : grid0.Coords, ∀ a, (k0_off1 i) a + S1x512.size a ≤ S1x2048.size a
  k0_off2_inb : ∀ i : grid0.Coords, ∀ a, (k0_off2 i) a + S1x512x1024.size a ≤ S1x2048x1024.size a
  k0_off3_inb : ∀ i : grid0.Coords, ∀ (k0_h4 : k0_cond4 i = 1#1), ∀ a, (k0_off3 i) a + S1x512.size a ≤ S1x2048.size a
  k0_off4_inb : ∀ i : grid0.Coords, ∀ (k0_h4 : k0_cond4 i = 1#1), ∀ a, (k0_off4 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x2048x1024, .f32⟩
  | .hbm, ⟨32, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x2048_S8x2048x1024_S8x2048x1024_1_1_2_2_0_0_wf : DotDims.WF S8x2048x2048 S8x2048x1024 S8x2048x1024 [1] [1] [2] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x2048_S8x2048x1024_S8x2048x1024_1_1_2_2_0_0 : DotDims S8x2048x2048 S8x2048x1024 S8x2048x1024 where
  lhsContracting := [1]
  rhsContracting := [1]
  lhsNonContracting := [2]
  rhsNonContracting := [2]
  lhsBatch := [0]
  rhsBatch := [0]
  wf := dot_S8x2048x2048_S8x2048x1024_S8x2048x1024_1_1_2_2_0_0_wf

class Facts : Prop extends Facts₀ where

variable [Facts]
-- ==== Proof.BodyKernel.Conds.lean ====
import proofs.«413194_j57758720196677_3_alg».proof.Proof.Gen.Kernel.Frame
import proofs.«413194_j57758720196677_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev c1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
abbrev c2 (i : grid0.Coords) : Prop := Scalar.cmpi .ne (Scalar.extui (Scalar.cmpi .eq (BitVec.ofNat 32 (i 2).val) 0#32)) 0#32 = 1#1
abbrev c3 (i : grid0.Coords) : Prop := Scalar.cmpi .ne (Scalar.extui (Scalar.cmpi .eq (BitVec.ofNat 32 (i 2).val) 3#32)) 0#32 = 1#1
abbrev c4 (i : grid0.Coords) : Prop := k0_cond4 i = 1#1

/-- The four branch conditions in terms of the point's number. -/
theorem hc1 : ∀ t : Fin cfg0.N, c1 (grid0.coords t) ↔ t.val % 16 = 0 :=
  (by decide +kernel : ∀ t : Fin grid0.N, c1 (grid0.coords t) ↔ t.val % 16 = 0)
theorem hc2 : ∀ t : Fin cfg0.N, c2 (grid0.coords t) ↔ t.val % 4 = 0 :=
  (by decide +kernel : ∀ t : Fin grid0.N, c2 (grid0.coords t) ↔ t.val % 4 = 0)
theorem hc3 : ∀ t : Fin cfg0.N, c3 (grid0.coords t) ↔ t.val % 4 = 3 :=
  (by decide +kernel : ∀ t : Fin grid0.N, c3 (grid0.coords t) ↔ t.val % 4 = 3)
theorem hc4 : ∀ t : Fin cfg0.N, c4 (grid0.coords t) ↔ t.val / 4 % 4 = 3 :=
  (by decide +kernel : ∀ t : Fin grid0.N, c4 (grid0.coords t) ↔ t.val / 4 % 4 = 3)

theorem hcoord1 : ∀ t : Fin cfg0.N, ((grid0.coords t) 1).val = t.val / 4 % 4 :=
  (by decide +kernel : ∀ t : Fin grid0.N, ((grid0.coords t) 1).val = t.val / 4 % 4)
theorem hcoord2 : ∀ t : Fin cfg0.N, ((grid0.coords t) 2).val = t.val % 4 :=
  (by decide +kernel : ∀ t : Fin grid0.N, ((grid0.coords t) 2).val = t.val % 4)
theorem hcoord0 : ∀ t : Fin cfg0.N, ((grid0.coords t) 0).val = t.val / 16 :=
  (by decide +kernel : ∀ t : Fin grid0.N, ((grid0.coords t) 0).val = t.val / 16)

theorem live0 : ∀ (w : Fin cfg0.W) (i : cfg0.grid.Coords), cfg0.idle w i = false := fun _ _ => rfl

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)

abbrev sc7 : Memref sig .tc .vmem S512x1 .f32 := Memref.whole cc0_scratch0
abbrev sc8 : Memref sig .tc .vmem S512x1 .f32 := Memref.whole cc0_scratch1
abbrev sc9 : Memref sig .tc .vmem S1x2048 .f32 := Memref.whole cc0_scratch2
abbrev sc10 : Memref sig .tc .vmem S1x2048 .f32 := Memref.whole cc0_scratch3

theorem PhiA0_eq (c : Dev nD) :
    (Pipeline.ΦA spec0 c : sProp 𝕄)
      = iprop(iprop((∃ d, owns (c : Thread nD τ) sc7 fullShare d) ∗ (∃ d, owns (c : Thread nD τ) sc8 fullShare d)
          ∗ (∃ d, owns (c : Thread nD τ) sc9 fullShare d) ∗ (∃ d, owns (c : Thread nD τ) sc10 fullShare d)) ∗ (∃ r, prngReg c r)) := by
  unfold Pipeline.ΦA; rw [scopedRest0_eq]; simp only [sc7, sc8, sc9, sc10, owns_whole]; try rfl

/-- Reading after the newest store: what the earlier stores left, overlaid by the payload on the store's rectangle. -/
theorem read_writes_cons_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

theorem overlay_unit_zero {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rw [Rect.emb_whole_apply] at e; exact e

theorem hz3 : (![0, 0, 0] : Fin 3 → ℕ) = fun _ => 0 := by funext a; fin_cases a <;> rfl
theorem hz2 : (![0, 0] : Fin 2 → ℕ) = fun _ => 0 := by funext a; fin_cases a <;> rfl

theorem read_writes_nil {sig : RefSig} {κ : Kind} {sp : Space} {s : Shape} {e : EltTy} {Val : EltTy → Type}
    (v : View sig κ sp s e) (f : v.ty.Contents Val) : v.read Val (v.writes Val f []) = v.read Val f := rfl

end Cert.Kernel.Body

end
-- ==== Proof.BodyKernel.VStep.lean ====
import proofs.«413194_j57758720196677_3_alg».proof.Proof.BodyKernel.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev colRect (i : grid0.Coords) : Rect S1x2048 := Rect.unit (s := S1x2048) (k0_off1 i) S1x512.size (k0_off1_inb i)
abbrev rowRect (i : grid0.Coords) : Rect S1x2048x1024 := Rect.unit (s := S1x2048x1024) (k0_off2 i) S1x512x1024.size (k0_off2_inb i)

abbrev colRect' (i : grid0.Coords) (h : c4 i) : Rect S1x2048 := Rect.unit (s := S1x2048) (k0_off3 i) S1x512.size (k0_off3_inb i h)
abbrev rowRect' (i : grid0.Coords) (h : c4 i) : Rect S1x2048x1024 := Rect.unit (s := S1x2048x1024) (k0_off4 i) S1x512x1024.size (k0_off4_inb i h)

variable (i : grid0.Coords) (x0 x1 : Vec F S1x512x1024 .f32)

def m7 (s7 : Vec F S512x1 .f32) : Vec F S512x1 .f32 := if c2 i then k0_pay9 (F := F) else s7
def l8 (s8 : Vec F S512x1 .f32) : Vec F S512x1 .f32 := if c2 i then k0_pay10 (F := F) else s8
def a5 (y5 : Vec F S1x512x1024 .f32) : Vec F S1x512x1024 .f32 := if c2 i then k0_pay8 (F := F) else y5

def nx7 (s7 : Vec F S512x1 .f32) : Vec F S512x1 .f32 := k0_pay22 (k0_pay16 x0 x1 (m7 i s7))

def nx8 (s7 s8 : Vec F S512x1 .f32) : Vec F S512x1 .f32 :=
  k0_pay20 (k0_pay18 x0 x1 (m7 i s7)) (k0_pay19 x0 x1 (m7 i s7) (l8 i s8))

def mid5 (y5 : Vec F S1x512x1024 .f32) (s7 : Vec F S512x1 .f32) : Vec F S1x512x1024 .f32 :=
  k0_pay21 (k0_pay14 x1) (k0_pay17 x0 x1 (m7 i s7)) (k0_pay18 x0 x1 (m7 i s7)) (a5 i y5)

/-- What one grid point leaves in the row accumulator, as a function of what it found; likewise `nx6 … nx10`. -/
def nx5 (y5 : Vec F S1x512x1024 .f32) (s7 s8 : Vec F S512x1 .f32) : Vec F S1x512x1024 .f32 :=
  if c3 i then k0_pay23 (mid5 i x0 x1 y5 s7) (nx8 i x0 x1 s7 s8) else mid5 i x0 x1 y5 s7

def m9 (s9 : Vec F S1x2048 .f32) : Vec F S1x2048 .f32 := if c1 i then k0_pay6 (F := F) else s9
def l10 (s10 : Vec F S1x2048 .f32) : Vec F S1x2048 .f32 := if c1 i then k0_pay7 (F := F) else s10
def b6 (y6 : Vec F S1x2048x1024 .f32) : Vec F S1x2048x1024 .f32 := if c1 i then k0_pay5 (F := F) else y6

def old9 (s9 : Vec F S1x2048 .f32) : Vec F S1x512 .f32 := View.ld (m9 i s9) (colRect i)
def old10 (s10 : Vec F S1x2048 .f32) : Vec F S1x512 .f32 := View.ld (l10 i s10) (colRect i)
def old6 (y6 : Vec F S1x2048x1024 .f32) : Vec F S1x512x1024 .f32 := View.ld (b6 i y6) (rowRect i)

def nx9 (s9 : Vec F S1x2048 .f32) : Vec F S1x2048 .f32 :=
  (colRect i).overlay (m9 i s9) (k0_pay1 (k0_pay24 (k0_pay15 x0 x1) (old9 i s9)))

def new10 (s9 s10 : Vec F S1x2048 .f32) : Vec F S1x512 .f32 :=
  k0_pay2 (k0_pay26 (k0_pay15 x0 x1) (old9 i s9)) (k0_pay27 (k0_pay15 x0 x1) (old9 i s9) (old10 i s10))

def nx10 (s9 s10 : Vec F S1x2048 .f32) : Vec F S1x2048 .f32 := (colRect i).overlay (l10 i s10) (new10 i x0 x1 s9 s10)

def new6 (y6 : Vec F S1x2048x1024 .f32) (s9 : Vec F S1x2048 .f32) : Vec F S1x512x1024 .f32 :=
  k0_pay3 (k0_pay13 x0) (k0_pay25 (k0_pay15 x0 x1) (old9 i s9)) (k0_pay26 (k0_pay15 x0 x1) (old9 i s9)) (old6 i y6)

def mid6 (y6 : Vec F S1x2048x1024 .f32) (s9 : Vec F S1x2048 .f32) : Vec F S1x2048x1024 .f32 :=
  (rowRect i).overlay (b6 i y6) (new6 i x0 x1 y6 s9)

def nx6 (y6 : Vec F S1x2048x1024 .f32) (s9 s10 : Vec F S1x2048 .f32) : Vec F S1x2048x1024 .f32 :=
  if c4 i then (rowRect i).overlay (mid6 i x0 x1 y6 s9) (k0_pay4 (new10 i x0 x1 s9 s10) (new6 i x0 x1 y6 s9))
  else mid6 i x0 x1 y6 s9

end Cert.Kernel.Body

end
-- ==== Proof.BodyKernel.Point.lean ====
import proofs.«413194_j57758720196677_3_alg».proof.Proof.BodyKernel.VStep

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg3 : Memref sig .tc .vmem S1x512x1024 .f32) (harg3 : arg3.IsWhole) (arg4 : Memref sig .tc .vmem S1x512x1024 .f32) (harg4 : arg4.IsWhole)
    (arg5 : Memref sig .tc .vmem S1x512x1024 .f32) (harg5 : arg5.IsWhole) (arg6 : Memref sig .tc .vmem S1x2048x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S1x2048 .f32) (harg9 : arg9.IsWhole) (arg10 : Memref sig .tc .vmem S1x2048 .f32) (harg10 : arg10.IsWhole)
    (x0 x1 y5 : Vec F S1x512x1024 .f32) (y6 : Vec F S1x2048x1024 .f32) (s7 s8 : Vec F S512x1 .f32) (s9 s10 : Vec F S1x2048 .f32)

/-- From the eight buffers at `x0 … s10` the body runs to its end, the two inputs kept and the six written buffers left as `P5 … P10`. -/
def Runs (P5 P6 P7 P8 P9 P10 : sProp 𝕄) : Prop :=
  ∀ (E : Set ℕ) (K : PUnit → sProp 𝕄),
    iprop(owns (c : Thread nD τ) arg3 fullShare x0 ∗ owns (c : Thread nD τ) arg4 fullShare x1 ∗ owns (c : Thread nD τ) arg5 fullShare y5
        ∗ owns (c : Thread nD τ) arg6 fullShare y6 ∗ owns (c : Thread nD τ) arg7 fullShare s7 ∗ owns (c : Thread nD τ) arg8 fullShare s8
        ∗ owns (c : Thread nD τ) arg9 fullShare s9 ∗ owns (c : Thread nD τ) arg10 fullShare s10
        ∗ (iprop(owns (c : Thread nD τ) arg3 fullShare x0 ∗ owns (c : Thread nD τ) arg4 fullShare x1 ∗ P5 ∗ P6 ∗ P7 ∗ P8 ∗ P9 ∗ P10) -∗ K ⟨⟩))
      ⊢ wp frame (wpE (defs₀ (F := F)) Variants.none c none) E (cc0__dual_softmax_kernel i arg3 harg3 arg4 harg4 arg5 harg5 arg6 harg6 arg7 harg7 arg8 harg8 arg9 harg9 arg10 harg10) K

/-- A run of the body: the pieces each written buffer ends with, newest first, over base contents `b5 … b10`. -/
abbrev Ran (b5 : Vec F S1x512x1024 .f32) (b6 : Vec F S1x2048x1024 .f32) (b7 b8 : Vec F S512x1 .f32) (b9 b10 : Vec F S1x2048 .f32) :=
  Σ' (L5 : List (View.Piece (Elt F) S1x512x1024 .f32)) (L6 : List (View.Piece (Elt F) S1x2048x1024 .f32))
     (L7 : List (View.Piece (Elt F) S512x1 .f32)) (L8 : List (View.Piece (Elt F) S512x1 .f32)) (L9 : List (View.Piece (Elt F) S1x2048 .f32)),
    { L10 : List (View.Piece (Elt F) S1x2048 .f32) //
      Runs c i arg3 harg3 arg4 harg4 arg5 harg5 arg6 harg6 arg7 harg7 arg8 harg8 arg9 harg9 arg10 harg10 x0 x1 y5 y6 s7 s8 s9 s10
        (arg5.view.loc (c : Thread nD τ) ↦[arg5.view.set]{fullShare} arg5.view.writes (Elt F) (harg5.unread b5) L5)
        (arg6.view.loc (c : Thread nD τ) ↦[arg6.view.set]{fullShare} arg6.view.writes (Elt F) (harg6.unread b6) L6)
        (arg7.view.loc (c : Thread nD τ) ↦[arg7.view.set]{fullShare} arg7.view.writes (Elt F) (harg7.unread b7) L7)
        (arg8.view.loc (c : Thread nD τ) ↦[arg8.view.set]{fullShare} arg8.view.writes (Elt F) (harg8.unread b8) L8)
        (arg9.view.loc (c : Thread nD τ) ↦[arg9.view.set]{fullShare} arg9.view.writes (Elt F) (harg9.unread b9) L9)
        (arg10.view.loc (c : Thread nD τ) ↦[arg10.view.set]{fullShare} arg10.view.writes (Elt F) (harg10.unread b10) L10) }

/-- One grid point: the body leaves the one-point function of what it found in the six written buffers. -/
def Sound : Prop :=
  Runs c i arg3 harg3 arg4 harg4 arg5 harg5 arg6 harg6 arg7 harg7 arg8 harg8 arg9 harg9 arg10 harg10 x0 x1 y5 y6 s7 s8 s9 s10
    (owns (c : Thread nD τ) arg5 fullShare (nx5 i x0 x1 y5 s7 s8)) (owns (c : Thread nD τ) arg6 fullShare (nx6 i x0 x1 y6 s9 s10))
    (owns (c : Thread nD τ) arg7 fullShare (nx7 i x0 x1 s7)) (owns (c : Thread nD τ) arg8 fullShare (nx8 i x0 x1 s7 s8))
    (owns (c : Thread nD τ) arg9 fullShare (nx9 i x0 x1 s9)) (owns (c : Thread nD τ) arg10 fullShare (nx10 i x0 x1 s9 s10))

variable {c i arg3 harg3 arg4 harg4 arg5 harg5 arg6 harg6 arg7 harg7 arg8 harg8 arg9 harg9 arg10 harg10 x0 x1 y5 y6 s7 s8 s9 s10}

/-- A run whose six piece lists read back as the one-point function is the one-point run. -/
theorem Ran.sound {b5 : Vec F S1x512x1024 .f32} {b6 : Vec F S1x2048x1024 .f32} {b7 b8 : Vec F S512x1 .f32} {b9 b10 : Vec F S1x2048 .f32}
    (r : Ran c i arg3 harg3 arg4 harg4 arg5 harg5 arg6 harg6 arg7 harg7 arg8 harg8 arg9 harg9 arg10 harg10 x0 x1 y5 y6 s7 s8 s9 s10 b5 b6 b7 b8 b9 b10)
    (e5 : arg5.view.read (Elt F) (arg5.view.writes (Elt F) (harg5.unread b5) r.1) = nx5 i x0 x1 y5 s7 s8)
    (e6 : arg6.view.read (Elt F) (arg6.view.writes (Elt F) (harg6.unread b6) r.2.1) = nx6 i x0 x1 y6 s9 s10)
    (e7 : arg7.view.read (Elt F) (arg7.view.writes (Elt F) (harg7.unread b7) r.2.2.1) = nx7 i x0 x1 s7)
    (e8 : arg8.view.read (Elt F) (arg8.view.writes (Elt F) (harg8.unread b8) r.2.2.2.1) = nx8 i x0 x1 s7 s8)
    (e9 : arg9.view.read (Elt F) (arg9.view.writes (Elt F) (harg9.unread b9) r.2.2.2.2.1) = nx9 i x0 x1 s9)
    (e10 : arg10.view.read (Elt F) (arg10.view.writes (Elt F) (harg10.unread b10) r.2.2.2.2.2.1) = nx10 i x0 x1 s9 s10) :
    Sound c i arg3 harg3 arg4 harg4 arg5 harg5 arg6 harg6 arg7 harg7 arg8 harg8 arg9 harg9 arg10 harg10 x0 x1 y5 y6 s7 s8 s9 s10 := by
  unfold Sound Runs
  intro E K
  iintro ⟨H3, H4, H5, H6, H7, H8, H9, H10, Hk⟩
  iapply (r.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  iapply Hk
  isplitl [H3]; · iexact H3
  isplitl [H4]; · iexact H4
  isplitl [H5]
  · unfold owns; iexists _; isplitr
    swap; · iexact H5
    ipureintro; exact e5
  isplitl [H6]
  · unfold owns; iexists _; isplitr
    swap; · iexact H6
    ipureintro; exact e6
  isplitl [H7]
  · unfold owns; iexists _; isplitr
    swap; · iexact H7
    ipureintro; exact e7
  isplitl [H8]
  · unfold owns; iexists _; isplitr
    swap; · iexact H8
    ipureintro; exact e8
  isplitl [H9]
  · unfold owns; iexists _; isplitr
    swap; · iexact H9
    ipureintro; exact e9
  unfold owns; iexists _; isplitr
  swap; · iexact H10
  ipureintro; exact e10

end Cert.Kernel.Body

end
-- ==== Proof.BodyKernel.RunA.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

theorem part1A (h1 : c1 i) (h2 : c2 i) (E : Set ℕ) (Q : (Σ' (arg1 : BitVec 32) (arg2 : BitVec 32) (v12 : FVec F S512x1024 .bf16) (v16 : FVec F S512x1024 .bf16) (v24 : FVec F S512x512 .f32) (v28 : FVec F S512x1 .f32) (v30 : FVec F S512x1 .f32) (v33 : FVec F S512x512 .f32), FVec F S512x1 .f32) → sProp 𝕄) :
    iprop(owns (c : Thread nD τ) arg3 fullShare x0 ∗ owns (c : Thread nD τ) arg4 fullShare x1 ∗ owns (c : Thread nD τ) arg5 fullShare y5
        ∗ owns (c : Thread nD τ) arg6 fullShare y6 ∗ owns (c : Thread nD τ) arg7 fullShare s7 ∗ owns (c : Thread nD τ) arg8 fullShare s8
        ∗ owns (c : Thread nD τ) arg9 fullShare s9 ∗ owns (c : Thread nD τ) arg10 fullShare s10
        ∗ (iprop(owns (c : Thread nD τ) arg3 fullShare x0 ∗ owns (c : Thread nD τ) arg4 fullShare x1
            ∗ owns (c : Thread nD τ) arg5 fullShare (k0_pay8 (F := F)) ∗ owns (c : Thread nD τ) arg6 fullShare (k0_pay5 (F := F))
            ∗ owns (c : Thread nD τ) arg7 fullShare (k0_pay9 (F := F)) ∗ owns (c : Thread nD τ) arg8 fullShare (k0_pay10 (F := F))
            ∗ owns (c : Thread nD τ) arg9 fullShare (k0_pay6 (F := F)) ∗ owns (c : Thread nD τ) arg10 fullShare (k0_pay7 (F := F)))
          -∗ Q ⟨BitVec.ofNat 32 (i 1).val, BitVec.ofNat 32 (i 2).val, k0_pay13 x0, k0_pay14 x1, k0_pay15 x0 x1,
              k0_pay16 x0 x1 (k0_pay9 (F := F)), k0_pay17 x0 x1 (k0_pay9 (F := F)), k0_pay18 x0 x1 (k0_pay9 (F := F)),
              k0_pay19 x0 x1 (k0_pay9 (F := F)) (k0_pay10 (F := F))⟩))
      ⊢ wp frame (wpE (defs₀ (F := F)) Variants.none c none) E (k0_part1 i arg3 harg3 arg4 harg4 arg5 harg5 arg6 harg6 arg7 harg7 arg8 harg8 arg9 harg9 arg10 harg10) Q := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2)
  sl_step
  sl_unfold_run_names
  simp only [View.readCov_cons_toLoadRect, View.readAt_eq_ld, Memref.IsWhole.read_unread, View.ld_unit_zero (S := S1x512x1024) hz3, View.ld_unit_zero (S := S512x1) hz2]
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; rw [read_writes_cons_overlay]; exact overlay_unit_zero (S := S1x512x1024) hz3 _ _ _
  isplitl [H6]
  · iexists _; isplitr
    swap; · iexact H6
    ipureintro; rw [read_writes_cons_overlay]; exact overlay_unit_zero (S := S1x2048x1024) hz3 _ _ _
  isplitl [H7]
  · iexists _; isplitr
    swap; · iexact H7
    ipureintro; rw [read_writes_cons_overlay]; exact overlay_unit_zero (S := S512x1) hz2 _ _ _
  isplitl [H8]
  · iexists _; isplitr
    swap; · iexact H8
    ipureintro; rw [read_writes_cons_overlay]; exact overlay_unit_zero (S := S512x1) hz2 _ _ _
  isplitl [H9]
  · iexists _; isplitr
    swap; · iexact H9
    ipureintro; rw [read_writes_cons_overlay]; exact overlay_unit_zero (S := S1x2048) hz2 _ _ _
  iexists _; isplitr
  swap; · iexact H10
  ipureintro; rw [read_writes_cons_overlay]; exact overlay_unit_zero (S := S1x2048) hz2 _ _ _

set_option maxHeartbeats 4000000 in
/-- A batch element's first point, both resets: the body's first part, then the rest from the reset contents. -/
noncomputable def runA (h1 : c1 i) (h2 : c2 i) (h3 : ¬c3 i) (h4 : ¬c4 i) :
    Ran c i arg3 harg3 arg4 harg4 arg5 harg5 arg6 harg6 arg7 harg7 arg8 harg8 arg9 harg9 arg10 harg10 x0 x1 y5 y6 s7 s8 s9 s10 (k0_pay8 (F := F)) (k0_pay5 (F := F)) (k0_pay9 (F := F)) (k0_pay10 (F := F)) (k0_pay6 (F := F)) (k0_pay7 (F := F)) := by
  refine ⟨?_, ?_, ?_, ?_, ?_, ?_, fun E K => ?run⟩
  case run =>
    simp only [cc0__dual_softmax_kernel_eq_skeleton]; unfold cc0__dual_softmax_kernel_skel
    rw [wp_bind]
    iintro ⟨H3, H4, H5, H6, H7, H8, H9, H10, Hk⟩
    iapply (part1A h1 h2 E _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    dsimp only
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundA (h1 : c1 i) (h2 : c2 i) (h3 : ¬c3 i) (h4 : ¬c4 i) : Sound c i arg3 harg3 arg4 harg4 arg5 harg5 arg6 harg6 arg7 harg7 arg8 harg8 arg9 harg9 arg10 harg10 x0 x1 y5 y6 s7 s8 s9 s10 := by
  refine (runA h1 h2 h3 h4).sound ?_ ?_ ?_ ?_ ?_ ?_ <;>
    (unfold runA; dsimp only; sl_unfold_run_names
     simp only [nx5, nx6, nx7, nx8, nx9, nx10, mid5, mid6, new6, new10, old6, old9, old10, a5, b6, m7, l8, m9, l10, colRect, rowRect, colRect', rowRect',
       if_pos h1, if_pos h2, if_neg h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.RunB.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A point in the middle of both sweeps: no reset, no normalisation. -/
noncomputable def runB (h1 : ¬c1 i) (h2 : ¬c2 i) (h3 : ¬c3 i) (h4 : ¬c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundB (h1 : ¬c1 i) (h2 : ¬c2 i) (h3 : ¬c3 i) (h4 : ¬c4 i) : Sound c i arg3 harg3 arg4 harg4 arg5 harg5 arg6 harg6 arg7 harg7 arg8 harg8 arg9 harg9 arg10 harg10 x0 x1 y5 y6 s7 s8 s9 s10 := by
  refine (runB h1 h2 h3 h4).sound ?_ ?_ ?_ ?_ ?_ ?_ <;>
    (unfold runB; dsimp only; sl_unfold_run_names
     simp only [nx5, nx6, nx7, nx8, nx9, nx10, mid5, mid6, new6, new10, old6, old9, old10, a5, b6, m7, l8, m9, l10, colRect, rowRect, colRect', rowRect',
       if_neg h1, if_neg h2, if_neg h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.RunC.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A row tile's last column tile: the row accumulator is normalised. -/
noncomputable def runC (h1 : ¬c1 i) (h2 : ¬c2 i) (h3 : c3 i) (h4 : ¬c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundC (h1 : ¬c1 i) (h2 : ¬c2 i) (h3 : c3 i) (h4 : ¬c4 i) : Sound c i arg3 harg3 arg4 harg4 arg5 harg5 arg6 harg6 arg7 harg7 arg8 harg8 arg9 harg9 arg10 harg10 x0 x1 y5 y6 s7 s8 s9 s10 := by
  refine (runC h1 h2 h3 h4).sound ?_ ?_ ?_ ?_ ?_ ?_ <;>
    (unfold runC; dsimp only; sl_unfold_run_names
     simp only [nx5, nx6, nx7, nx8, nx9, nx10, mid5, mid6, new6, new10, old6, old9, old10, a5, b6, m7, l8, m9, l10, colRect, rowRect, colRect', rowRect',
       if_neg h1, if_neg h2, if_pos h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.RunD.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A later row tile's first column tile: the row statistics are reset. -/
noncomputable def runD (h1 : ¬c1 i) (h2 : c2 i) (h3 : ¬c3 i) (h4 : ¬c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundD (h1 : ¬c1 i) (h2 : c2 i) (h3 : ¬c3 i) (h4 : ¬c4 i) : Sound c i arg3 harg3 arg4 harg4 arg5 harg5 arg6 harg6 arg7 harg7 arg8 harg8 arg9 harg9 arg10 harg10 x0 x1 y5 y6 s7 s8 s9 s10 := by
  refine (runD h1 h2 h3 h4).sound ?_ ?_ ?_ ?_ ?_ ?_ <;>
    (unfold runD; dsimp only; sl_unfold_run_names
     simp only [nx5, nx6, nx7, nx8, nx9, nx10, mid5, mid6, new6, new10, old6, old9, old10, a5, b6, m7, l8, m9, l10, colRect, rowRect, colRect', rowRect',
       if_neg h1, if_pos h2, if_neg h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.RunE.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- The last row tile's first column tile: the row statistics are reset and the column tile is normalised. -/
noncomputable def runE (h1 : ¬c1 i) (h2 : c2 i) (h3 : ¬c3 i) (h4 : c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundE (h1 : ¬c1 i) (h2 : c2 i) (h3 : ¬c3 i) (h4 : c4 i) : Sound c i arg3 harg3 arg4 harg4 arg5 harg5 arg6 harg6 arg7 harg7 arg8 harg8 arg9 harg9 arg10 harg10 x0 x1 y5 y6 s7 s8 s9 s10 := by
  refine (runE h1 h2 h3 h4).sound ?_ ?_ ?_ ?_ ?_ ?_ <;>
    (unfold runE; dsimp only; sl_unfold_run_names
     simp only [nx5, nx6, nx7, nx8, nx9, nx10, mid5, mid6, new6, new10, old6, old9, old10, a5, b6, m7, l8, m9, l10, colRect, rowRect, colRect', rowRect',
       if_neg h1, if_pos h2, if_neg h3, if_pos h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.RunF.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A middle column tile of the last row tile: the column tile is normalised. -/
noncomputable def runF (h1 : ¬c1 i) (h2 : ¬c2 i) (h3 : ¬c3 i) (h4 : c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundF (h1 : ¬c1 i) (h2 : ¬c2 i) (h3 : ¬c3 i) (h4 : c4 i) : Sound c i arg3 harg3 arg4 harg4 arg5 harg5 arg6 harg6 arg7 harg7 arg8 harg8 arg9 harg9 arg10 harg10 x0 x1 y5 y6 s7 s8 s9 s10 := by
  refine (runF h1 h2 h3 h4).sound ?_ ?_ ?_ ?_ ?_ ?_ <;>
    (unfold runF; dsimp only; sl_unfold_run_names
     simp only [nx5, nx6, nx7, nx8, nx9, nx10, mid5, mid6, new6, new10, old6, old9, old10, a5, b6, m7, l8, m9, l10, colRect, rowRect, colRect', rowRect',
       if_neg h1, if_neg h2, if_neg h3, if_pos h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.RunG.lean ====
import proofs.«413194_j57758720196677_3_alg».proof.Proof.BodyKernel.Point

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A batch element's last point: both normalisations. -/
noncomputable def runG (h1 : ¬c1 i) (h2 : ¬c2 i) (h3 : c3 i) (h4 : c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundG (h1 : ¬c1 i) (h2 : ¬c2 i) (h3 : c3 i) (h4 : c4 i) : Sound c i arg3 harg3 arg4 harg4 arg5 harg5 arg6 harg6 arg7 harg7 arg8 harg8 arg9 harg9 arg10 harg10 x0 x1 y5 y6 s7 s8 s9 s10 := by
  refine (runG h1 h2 h3 h4).sound ?_ ?_ ?_ ?_ ?_ ?_ <;>
    (unfold runG; dsimp only; sl_unfold_run_names
     simp only [nx5, nx6, nx7, nx8, nx9, nx10, mid5, mid6, new6, new10, old6, old9, old10, a5, b6, m7, l8, m9, l10, colRect, rowRect, colRect', rowRect',
       if_neg h1, if_neg h2, if_pos h3, if_pos h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.Kernel.Body

end
-- ==== Proof.BodyKernel.Cases.lean ====
import proofs.«413194_j57758720196677_3_alg».proof.Proof.BodyKernel.RunA
import proofs.«413194_j57758720196677_3_alg».proof.Proof.BodyKernel.RunB
import proofs.«413194_j57758720196677_3_alg».proof.Proof.BodyKernel.RunC
import proofs.«413194_j57758720196677_3_alg».proof.Proof.BodyKernel.RunD
import proofs.«413194_j57758720196677_3_alg».proof.Proof.BodyKernel.RunE
import proofs.«413194_j57758720196677_3_alg».proof.Proof.BodyKernel.RunF
import proofs.«413194_j57758720196677_3_alg».proof.Proof.BodyKernel.RunG

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_point (c : Dev nD) (t : Fin cfg0.N)
    (arg3 : Memref sig .tc .vmem S1x512x1024 .f32) (harg3 : arg3.IsWhole) (arg4 : Memref sig .tc .vmem S1x512x1024 .f32) (harg4 : arg4.IsWhole)
    (arg5 : Memref sig .tc .vmem S1x512x1024 .f32) (harg5 : arg5.IsWhole) (arg6 : Memref sig .tc .vmem S1x2048x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S1x2048 .f32) (harg9 : arg9.IsWhole) (arg10 : Memref sig .tc .vmem S1x2048 .f32) (harg10 : arg10.IsWhole)
    (x0 x1 y5 : Vec F S1x512x1024 .f32) (y6 : Vec F S1x2048x1024 .f32) (s7 s8 : Vec F S512x1 .f32) (s9 s10 : Vec F S1x2048 .f32) :
    Sound c (grid0.coords t) arg3 harg3 arg4 harg4 arg5 harg5 arg6 harg6 arg7 harg7 arg8 harg8 arg9 harg9 arg10 harg10 x0 x1 y5 y6 s7 s8 s9 s10 := by
  have e1 := hc1 t
  have e2 := hc2 t
  have e3 := hc3 t
  have e4 := hc4 t
  by_cases h1 : c1 (grid0.coords t)
  · have k1 := e1.mp h1
    by_cases h2 : c2 (grid0.coords t)
    · by_cases h3 : c3 (grid0.coords t)
      · have k3 := e3.mp h3
        exfalso; omega
      · by_cases h4 : c4 (grid0.coords t)
        · have k4 := e4.mp h4
          exfalso; omega
        · exact soundA h1 h2 h3 h4
    · have k2 : ¬ t.val % 4 = 0 := fun e => h2 (e2.mpr e)
      exfalso; omega
  · by_cases h2 : c2 (grid0.coords t)
    · have k2 := e2.mp h2
      by_cases h3 : c3 (grid0.coords t)
      · have k3 := e3.mp h3
        exfalso; omega
      · by_cases h4 : c4 (grid0.coords t)
        · exact soundE h1 h2 h3 h4
        · exact soundD h1 h2 h3 h4
    · by_cases h3 : c3 (grid0.coords t)
      · by_cases h4 : c4 (grid0.coords t)
        · exact soundG h1 h2 h3 h4
        · exact soundC h1 h2 h3 h4
      · by_cases h4 : c4 (grid0.coords t)
        · exact soundF h1 h2 h3 h4
        · exact soundB h1 h2 h3 h4

end Cert.Kernel.Body

end
-- ==== Proof.BodyKernel.Frame.lean ====
import proofs.«413194_j57758720196677_3_alg».proof.Proof.BodyKernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

structure Bufs (F : FTy → Type) [FloatOps F] where
  y5 : Vec F S1x512x1024 .f32
  y6 : Vec F S1x2048x1024 .f32
  s7 : Vec F S512x1 .f32
  s8 : Vec F S512x1 .f32
  s9 : Vec F S1x2048 .f32
  s10 : Vec F S1x2048 .f32

def nxAll (i : grid0.Coords) (x0 x1 : Vec F S1x512x1024 .f32) (b : Bufs F) : Bufs F where
  y5 := nx5 i x0 x1 b.y5 b.s7 b.s8
  y6 := nx6 i x0 x1 b.y6 b.s9 b.s10
  s7 := nx7 i x0 x1 b.s7
  s8 := nx8 i x0 x1 b.s7 b.s8
  s9 := nx9 i x0 x1 b.s9
  s10 := nx10 i x0 x1 b.s9 b.s10

theorem ite_congr_not {α : Type} {p : Prop} [Decidable p] {k a b : α} (h : ¬p → a = b) :
    (if p then k else a) = (if p then k else b) := by
  by_cases hp : p
  · rw [if_pos hp, if_pos hp]
  · rw [if_neg hp, if_neg hp, h hp]

theorem nxAll_congr (i : grid0.Coords) (x0 x1 : Vec F S1x512x1024 .f32) (b b' : Bufs F)
    (h5 : ¬c2 i → b.y5 = b'.y5) (h7 : ¬c2 i → b.s7 = b'.s7) (h8 : ¬c2 i → b.s8 = b'.s8)
    (h6 : ¬c1 i → b.y6 = b'.y6) (h9 : ¬c1 i → b.s9 = b'.s9) (h10 : ¬c1 i → b.s10 = b'.s10) :
    nxAll i x0 x1 b = nxAll i x0 x1 b' := by
  have e7 : m7 i b.s7 = m7 i b'.s7 := ite_congr_not h7
  have e8 : l8 i b.s8 = l8 i b'.s8 := ite_congr_not h8
  have e5 : a5 i b.y5 = a5 i b'.y5 := ite_congr_not h5
  have e9 : m9 i b.s9 = m9 i b'.s9 := ite_congr_not h9
  have e10 : l10 i b.s10 = l10 i b'.s10 := ite_congr_not h10
  have e6 : b6 i b.y6 = b6 i b'.y6 := ite_congr_not h6
  unfold nxAll nx5 nx6 nx7 nx8 nx9 nx10 mid5 mid6 new6 new10 old6 old9 old10
  simp only [e5, e6, e7, e8, e9, e10]

/-- The six buffers after point `n`: the one-point function iterated along the grid. -/
def outsAt (c : Dev nD) : (n : ℕ) → n < cfg0.N → Bufs F
  | 0, h => nxAll (grid0.coords ⟨0, h⟩) (iblk m c 0 ⟨0, h⟩) (iblk m c 1 ⟨0, h⟩)
      ⟨k0_pay8 (F := F), k0_pay5 (F := F), k0_pay9 (F := F), k0_pay10 (F := F), k0_pay6 (F := F), k0_pay7 (F := F)⟩
  | n + 1, h => nxAll (grid0.coords ⟨n + 1, h⟩) (iblk m c 0 ⟨n + 1, h⟩) (iblk m c 1 ⟨n + 1, h⟩) (outsAt c n (Nat.lt_of_succ_lt h))

theorem outsAt_pos (c : Dev nD) (t : Fin cfg0.N) (ht : t.val ≠ 0) :
    outsAt m c t.val t.isLt = nxAll (grid0.coords t) (iblk m c 0 t) (iblk m c 1 t)
      (outsAt m c (t.val - 1) (Nat.lt_of_le_of_lt (Nat.sub_le _ _) t.isLt)) := by
  obtain ⟨n, hn⟩ := t
  cases n with
  | zero => exact absurd rfl ht
  | succ n => rfl

def PhiS (c : Dev nD) : (n : ℕ) → n ≤ cfg0.N → sProp 𝕄
  | 0, _ => Pipeline.ΦA spec0 c
  | n + 1, hn => iprop(iprop(owns (c : Thread nD τ) sc7 fullShare (outsAt m c n hn).s7 ∗ owns (c : Thread nD τ) sc8 fullShare (outsAt m c n hn).s8
      ∗ owns (c : Thread nD τ) sc9 fullShare (outsAt m c n hn).s9 ∗ owns (c : Thread nD τ) sc10 fullShare (outsAt m c n hn).s10) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc7 fullShare (outsAt m c n hn).s7 ∗ owns (c : Thread nD τ) sc8 fullShare (outsAt m c n hn).s8
      ∗ owns (c : Thread nD τ) sc9 fullShare (outsAt m c n hn).s9 ∗ owns (c : Thread nD τ) sc10 fullShare (outsAt m c n hn).s10) ∗ (∃ r, prngReg c r)) := rfl

theorem PhiS_pos (c : Dev nD) (n : ℕ) (h : n ≤ cfg0.N) (hz : n ≠ 0) :
    PhiS m c n h = iprop(iprop(owns (c : Thread nD τ) sc7 fullShare (outsAt m c (n - 1) (by omega)).s7 ∗ owns (c : Thread nD τ) sc8 fullShare (outsAt m c (n - 1) (by omega)).s8
      ∗ owns (c : Thread nD τ) sc9 fullShare (outsAt m c (n - 1) (by omega)).s9 ∗ owns (c : Thread nD τ) sc10 fullShare (outsAt m c (n - 1) (by omega)).s10) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).y5
    | ⟨3, _⟩ => (outsAt m c t.val t.isLt).y6
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).y5 := by dsimp only [dats]
theorem after3 (c : Dev nD) (t : Fin cfg0.N) : (dats m 0 c).after 3 t = (outsAt m c t.val t.isLt).y6 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

theorem before2 (c : Dev nD) (t : Fin cfg0.N) (h : ¬c2 (grid0.coords t)) (d) :
    (dats m 0 c).before 2 t d = (outsAt m c (t.val - 1) (Nat.lt_of_le_of_lt (Nat.sub_le _ _) t.isLt)).y5 := by
  have h4 : t.val % 4 ≠ 0 := fun e => h ((hc2 t).mpr e)
  have ht : t.val ≠ 0 := fun e => h4 (by rw [e])
  rw [Dat.before_out_kept _ 2 rfl t ht (Bool.eq_false_iff.mpr fun hf => by have := (flush0_2 _).mp hf; dsimp only at this; omega)
    (fun _ => rfl) (fun _ _ => rfl), after2]

theorem before3 (c : Dev nD) (t : Fin cfg0.N) (h : ¬c1 (grid0.coords t)) (d) :
    (dats m 0 c).before 3 t d = (outsAt m c (t.val - 1) (Nat.lt_of_le_of_lt (Nat.sub_le _ _) t.isLt)).y6 := by
  have h16 : t.val % 16 ≠ 0 := fun e => h ((hc1 t).mpr e)
  have ht : t.val ≠ 0 := fun e => h16 (by rw [e])
  rw [Dat.before_out_kept _ 3 rfl t ht (Bool.eq_false_iff.mpr fun hf => by have := (flush0_3 _).mp hf; dsimp only at this; omega)
    (fun _ => rfl) (fun _ _ => rfl), after3]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live0 w]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, after0, after1, after2, after3]
  by_cases hz : t.val = 0
  ·
    have hc1' : c1 (grid0.coords t) := (hc1 t).mpr (by rw [hz])
    have hc2' : c2 (grid0.coords t) := (hc2 t).mpr (by rw [hz])
    rw [PhiS_castSucc m c t, PhiS_zero m c _ _ hz, PhiA0_eq]
    iintro ⟨⟨⟨⟨%d7, H7⟩, ⟨%d8, H8⟩, ⟨%d9, H9⟩, ⟨%d10, H10⟩⟩, Hg⟩, Ho, ⟨%d0, H0⟩, ⟨%d1, H1⟩, ⟨%d5, H5⟩, ⟨%d6, H6⟩⟩
    iapply (sound_point c t _ _ _ _ _ _ _ _ _ _ _ _ _ _ _ _ (iblk m c 0 t) (iblk m c 1 t) _ _ d7 d8 d9 d10 Set.univ _)
    isplitl [H0]; · iexact H0
    isplitl [H1]; · iexact H1
    isplitl [H5]; · iexact H5
    isplitl [H6]; · iexact H6
    isplitl [H7]; · iexact H7
    isplitl [H8]; · iexact H8
    isplitl [H9]; · iexact H9
    isplitl [H10]; · iexact H10
    have e : outsAt m c t.val t.isLt = nxAll (grid0.coords t) (iblk m c 0 t) (iblk m c 1 t)
        ⟨(dats m 0 c).before 2 t d5, (dats m 0 c).before 3 t d6, d7, d8, d9, d10⟩ := by
      obtain ⟨n, hn⟩ := t
      obtain rfl : n = 0 := hz
      exact nxAll_congr _ _ _ _ _ (fun h => absurd hc2' h) (fun h => absurd hc2' h) (fun h => absurd hc2' h)
        (fun h => absurd hc1' h) (fun h => absurd hc1' h) (fun h => absurd hc1' h)
    rw [e]
    iintro ⟨H0, H1, H5, H6, H7, H8, H9, H10⟩
    isplitl [H7 H8 H9 H10 Hg]
    · isplitl [H7 H8 H9 H10]
      · isplitl [H7]; · iexact H7
        isplitl [H8]; · iexact H8
        isplitl [H9]; · iexact H9
        iexact H10
      iexact Hg
    isplitl [Ho]; · iexact Ho
    isplitl [H0]; · iexact H0
    isplitl [H1]; · iexact H1
    isplitl [H5]; · iexact H5
    iexact H6
  ·
    rw [PhiS_castSucc m c t, PhiS_pos m c _ _ hz]
    iintro ⟨⟨⟨H7, H8, H9, H10⟩, Hg⟩, Ho, ⟨%d0, H0⟩, ⟨%d1, H1⟩, ⟨%d5, H5⟩, ⟨%d6, H6⟩⟩
    iapply (sound_point c t _ _ _ _ _ _ _ _ _ _ _ _ _ _ _ _ (iblk m c 0 t) (iblk m c 1 t) _ _ _ _ _ _ Set.univ _)
    isplitl [H0]; · iexact H0
    isplitl [H1]; · iexact H1
    isplitl [H5]; · iexact H5
    isplitl [H6]; · iexact H6
    isplitl [H7]; · iexact H7
    isplitl [H8]; · iexact H8
    isplitl [H9]; · iexact H9
    isplitl [H10]; · iexact H10
    have e : outsAt m c t.val t.isLt = nxAll (grid0.coords t) (iblk m c 0 t) (iblk m c 1 t)
        ⟨(dats m 0 c).before 2 t d5, (dats m 0 c).before 3 t d6,
          (outsAt m c (t.val - 1) (Nat.lt_of_le_of_lt (Nat.sub_le _ _) t.isLt)).s7, (outsAt m c (t.val - 1) (Nat.lt_of_le_of_lt (Nat.sub_le _ _) t.isLt)).s8,
          (outsAt m c (t.val - 1) (Nat.lt_of_le_of_lt (Nat.sub_le _ _) t.isLt)).s9, (outsAt m c (t.val - 1) (Nat.lt_of_le_of_lt (Nat.sub_le _ _) t.isLt)).s10⟩ := by
      rw [outsAt_pos m c t hz]
      exact nxAll_congr _ _ _ _ _ (fun h => (before2 m c t h d5).symm) (fun _ => rfl) (fun _ => rfl)
        (fun h => (before3 m c t h d6).symm) (fun _ => rfl) (fun _ => rfl)
    rw [e]
    iintro ⟨H0, H1, H5, H6, H7, H8, H9, H10⟩
    isplitl [H7 H8 H9 H10 Hg]
    · isplitl [H7 H8 H9 H10]
      · isplitl [H7]; · iexact H7
        isplitl [H8]; · iexact H8
        isplitl [H9]; · iexact H9
        iexact H10
      iexact Hg
    isplitl [Ho]; · iexact Ho
    isplitl [H0]; · iexact H0
    isplitl [H1]; · iexact H1
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨H7, H8, H9, H10⟩, Hg⟩
  isplitl [H7 H8 H9 H10]
  · isplitl [H7]; · iexists _; iexact H7
    isplitl [H8]; · iexists _; iexact H8
    isplitl [H9]; · iexists _; iexact H9
    iexists _; iexact H10
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution ends, without a fault, with both arguments as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyKernelIdeal.Conds.lean ====
import proofs.«413194_j57758720196677_3_alg».proof.Proof.Gen.KernelIdeal.Frame
import proofs.«413194_j57758720196677_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev c1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
abbrev c2 (i : grid0.Coords) : Prop := Scalar.cmpi .ne (Scalar.extui (Scalar.cmpi .eq (BitVec.ofNat 32 (i 2).val) 0#32)) 0#32 = 1#1
abbrev c3 (i : grid0.Coords) : Prop := Scalar.cmpi .ne (Scalar.extui (Scalar.cmpi .eq (BitVec.ofNat 32 (i 2).val) 3#32)) 0#32 = 1#1
abbrev c4 (i : grid0.Coords) : Prop := k0_cond4 i = 1#1

/-- The four branch conditions in terms of the point's number. -/
theorem hc1 : ∀ t : Fin cfg0.N, c1 (grid0.coords t) ↔ t.val % 16 = 0 :=
  (by decide +kernel : ∀ t : Fin grid0.N, c1 (grid0.coords t) ↔ t.val % 16 = 0)
theorem hc2 : ∀ t : Fin cfg0.N, c2 (grid0.coords t) ↔ t.val % 4 = 0 :=
  (by decide +kernel : ∀ t : Fin grid0.N, c2 (grid0.coords t) ↔ t.val % 4 = 0)
theorem hc3 : ∀ t : Fin cfg0.N, c3 (grid0.coords t) ↔ t.val % 4 = 3 :=
  (by decide +kernel : ∀ t : Fin grid0.N, c3 (grid0.coords t) ↔ t.val % 4 = 3)
theorem hc4 : ∀ t : Fin cfg0.N, c4 (grid0.coords t) ↔ t.val / 4 % 4 = 3 :=
  (by decide +kernel : ∀ t : Fin grid0.N, c4 (grid0.coords t) ↔ t.val / 4 % 4 = 3)

theorem hcoord1 : ∀ t : Fin cfg0.N, ((grid0.coords t) 1).val = t.val / 4 % 4 :=
  (by decide +kernel : ∀ t : Fin grid0.N, ((grid0.coords t) 1).val = t.val / 4 % 4)
theorem hcoord2 : ∀ t : Fin cfg0.N, ((grid0.coords t) 2).val = t.val % 4 :=
  (by decide +kernel : ∀ t : Fin grid0.N, ((grid0.coords t) 2).val = t.val % 4)
theorem hcoord0 : ∀ t : Fin cfg0.N, ((grid0.coords t) 0).val = t.val / 16 :=
  (by decide +kernel : ∀ t : Fin grid0.N, ((grid0.coords t) 0).val = t.val / 16)

theorem live0 : ∀ (w : Fin cfg0.W) (i : cfg0.grid.Coords), cfg0.idle w i = false := fun _ _ => rfl

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)

abbrev sc7 : Memref sig .tc .vmem S512x1 .f32 := Memref.whole cc0_scratch0
abbrev sc8 : Memref sig .tc .vmem S512x1 .f32 := Memref.whole cc0_scratch1
abbrev sc9 : Memref sig .tc .vmem S1x2048 .f32 := Memref.whole cc0_scratch2
abbrev sc10 : Memref sig .tc .vmem S1x2048 .f32 := Memref.whole cc0_scratch3

theorem PhiA0_eq (c : Dev nD) :
    (Pipeline.ΦA spec0 c : sProp 𝕄)
      = iprop(iprop((∃ d, owns (c : Thread nD τ) sc7 fullShare d) ∗ (∃ d, owns (c : Thread nD τ) sc8 fullShare d)
          ∗ (∃ d, owns (c : Thread nD τ) sc9 fullShare d) ∗ (∃ d, owns (c : Thread nD τ) sc10 fullShare d)) ∗ (∃ r, prngReg c r)) := by
  unfold Pipeline.ΦA; rw [scopedRest0_eq]; simp only [sc7, sc8, sc9, sc10, owns_whole]; try rfl

/-- Reading after the newest store: what the earlier stores left, overlaid by the payload on the store's rectangle. -/
theorem read_writes_cons_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

theorem overlay_unit_zero {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rw [Rect.emb_whole_apply] at e; exact e

theorem hz3 : (![0, 0, 0] : Fin 3 → ℕ) = fun _ => 0 := by funext a; fin_cases a <;> rfl
theorem hz2 : (![0, 0] : Fin 2 → ℕ) = fun _ => 0 := by funext a; fin_cases a <;> rfl

theorem read_writes_nil {sig : RefSig} {κ : Kind} {sp : Space} {s : Shape} {e : EltTy} {Val : EltTy → Type}
    (v : View sig κ sp s e) (f : v.ty.Contents Val) : v.read Val (v.writes Val f []) = v.read Val f := rfl

end Cert.KernelIdeal.Body

end
-- ==== Proof.BodyKernelIdeal.VStep.lean ====
import proofs.«413194_j57758720196677_3_alg».proof.Proof.BodyKernelIdeal.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev colRect (i : grid0.Coords) : Rect S1x2048 := Rect.unit (s := S1x2048) (k0_off1 i) S1x512.size (k0_off1_inb i)
abbrev rowRect (i : grid0.Coords) : Rect S1x2048x1024 := Rect.unit (s := S1x2048x1024) (k0_off2 i) S1x512x1024.size (k0_off2_inb i)

abbrev colRect' (i : grid0.Coords) (h : c4 i) : Rect S1x2048 := Rect.unit (s := S1x2048) (k0_off3 i) S1x512.size (k0_off3_inb i h)
abbrev rowRect' (i : grid0.Coords) (h : c4 i) : Rect S1x2048x1024 := Rect.unit (s := S1x2048x1024) (k0_off4 i) S1x512x1024.size (k0_off4_inb i h)

variable (i : grid0.Coords) (x0 x1 : Vec F S1x512x1024 .f32)

def m7 (s7 : Vec F S512x1 .f32) : Vec F S512x1 .f32 := if c2 i then k0_pay9 (F := F) else s7
def l8 (s8 : Vec F S512x1 .f32) : Vec F S512x1 .f32 := if c2 i then k0_pay10 (F := F) else s8
def a5 (y5 : Vec F S1x512x1024 .f32) : Vec F S1x512x1024 .f32 := if c2 i then k0_pay8 (F := F) else y5

def nx7 (s7 : Vec F S512x1 .f32) : Vec F S512x1 .f32 := k0_pay22 (k0_pay16 x0 x1 (m7 i s7))

def nx8 (s7 s8 : Vec F S512x1 .f32) : Vec F S512x1 .f32 :=
  k0_pay20 (k0_pay18 x0 x1 (m7 i s7)) (k0_pay19 x0 x1 (m7 i s7) (l8 i s8))

def mid5 (y5 : Vec F S1x512x1024 .f32) (s7 : Vec F S512x1 .f32) : Vec F S1x512x1024 .f32 :=
  k0_pay21 (k0_pay14 x1) (k0_pay17 x0 x1 (m7 i s7)) (k0_pay18 x0 x1 (m7 i s7)) (a5 i y5)

/-- What one grid point leaves in the row accumulator, as a function of what it found; likewise `nx6 … nx10`. -/
def nx5 (y5 : Vec F S1x512x1024 .f32) (s7 s8 : Vec F S512x1 .f32) : Vec F S1x512x1024 .f32 :=
  if c3 i then k0_pay23 (mid5 i x0 x1 y5 s7) (nx8 i x0 x1 s7 s8) else mid5 i x0 x1 y5 s7

def m9 (s9 : Vec F S1x2048 .f32) : Vec F S1x2048 .f32 := if c1 i then k0_pay6 (F := F) else s9
def l10 (s10 : Vec F S1x2048 .f32) : Vec F S1x2048 .f32 := if c1 i then k0_pay7 (F := F) else s10
def b6 (y6 : Vec F S1x2048x1024 .f32) : Vec F S1x2048x1024 .f32 := if c1 i then k0_pay5 (F := F) else y6

def old9 (s9 : Vec F S1x2048 .f32) : Vec F S1x512 .f32 := View.ld (m9 i s9) (colRect i)
def old10 (s10 : Vec F S1x2048 .f32) : Vec F S1x512 .f32 := View.ld (l10 i s10) (colRect i)
def old6 (y6 : Vec F S1x2048x1024 .f32) : Vec F S1x512x1024 .f32 := View.ld (b6 i y6) (rowRect i)

def nx9 (s9 : Vec F S1x2048 .f32) : Vec F S1x2048 .f32 :=
  (colRect i).overlay (m9 i s9) (k0_pay1 (k0_pay24 (k0_pay15 x0 x1) (old9 i s9)))

def new10 (s9 s10 : Vec F S1x2048 .f32) : Vec F S1x512 .f32 :=
  k0_pay2 (k0_pay26 (k0_pay15 x0 x1) (old9 i s9)) (k0_pay27 (k0_pay15 x0 x1) (old9 i s9) (old10 i s10))

def nx10 (s9 s10 : Vec F S1x2048 .f32) : Vec F S1x2048 .f32 := (colRect i).overlay (l10 i s10) (new10 i x0 x1 s9 s10)

def new6 (y6 : Vec F S1x2048x1024 .f32) (s9 : Vec F S1x2048 .f32) : Vec F S1x512x1024 .f32 :=
  k0_pay3 (k0_pay13 x0) (k0_pay25 (k0_pay15 x0 x1) (old9 i s9)) (k0_pay26 (k0_pay15 x0 x1) (old9 i s9)) (old6 i y6)

def mid6 (y6 : Vec F S1x2048x1024 .f32) (s9 : Vec F S1x2048 .f32) : Vec F S1x2048x1024 .f32 :=
  (rowRect i).overlay (b6 i y6) (new6 i x0 x1 y6 s9)

def nx6 (y6 : Vec F S1x2048x1024 .f32) (s9 s10 : Vec F S1x2048 .f32) : Vec F S1x2048x1024 .f32 :=
  if c4 i then (rowRect i).overlay (mid6 i x0 x1 y6 s9) (k0_pay4 (new10 i x0 x1 s9 s10) (new6 i x0 x1 y6 s9))
  else mid6 i x0 x1 y6 s9

end Cert.KernelIdeal.Body

end
-- ==== Proof.BodyKernelIdeal.Point.lean ====
import proofs.«413194_j57758720196677_3_alg».proof.Proof.BodyKernelIdeal.VStep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg3 : Memref sig .tc .vmem S1x512x1024 .f32) (harg3 : arg3.IsWhole) (arg4 : Memref sig .tc .vmem S1x512x1024 .f32) (harg4 : arg4.IsWhole)
    (arg5 : Memref sig .tc .vmem S1x512x1024 .f32) (harg5 : arg5.IsWhole) (arg6 : Memref sig .tc .vmem S1x2048x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S1x2048 .f32) (harg9 : arg9.IsWhole) (arg10 : Memref sig .tc .vmem S1x2048 .f32) (harg10 : arg10.IsWhole)
    (x0 x1 y5 : Vec F S1x512x1024 .f32) (y6 : Vec F S1x2048x1024 .f32) (s7 s8 : Vec F S512x1 .f32) (s9 s10 : Vec F S1x2048 .f32)

/-- From the eight buffers at `x0 … s10` the body runs to its end, the two inputs kept and the six written buffers left as `P5 … P10`. -/
def Runs (P5 P6 P7 P8 P9 P10 : sProp 𝕄) : Prop :=
  ∀ (E : Set ℕ) (K : PUnit → sProp 𝕄),
    iprop(owns (c : Thread nD τ) arg3 fullShare x0 ∗ owns (c : Thread nD τ) arg4 fullShare x1 ∗ owns (c : Thread nD τ) arg5 fullShare y5
        ∗ owns (c : Thread nD τ) arg6 fullShare y6 ∗ owns (c : Thread nD τ) arg7 fullShare s7 ∗ owns (c : Thread nD τ) arg8 fullShare s8
        ∗ owns (c : Thread nD τ) arg9 fullShare s9 ∗ owns (c : Thread nD τ) arg10 fullShare s10
        ∗ (iprop(owns (c : Thread nD τ) arg3 fullShare x0 ∗ owns (c : Thread nD τ) arg4 fullShare x1 ∗ P5 ∗ P6 ∗ P7 ∗ P8 ∗ P9 ∗ P10) -∗ K ⟨⟩))
      ⊢ wp frame (wpE (defs₀ (F := F)) Variants.none c none) E (cc0__dual_softmax_kernel i arg3 harg3 arg4 harg4 arg5 harg5 arg6 harg6 arg7 harg7 arg8 harg8 arg9 harg9 arg10 harg10) K

/-- A run of the body: the pieces each written buffer ends with, newest first, over base contents `b5 … b10`. -/
abbrev Ran (b5 : Vec F S1x512x1024 .f32) (b6 : Vec F S1x2048x1024 .f32) (b7 b8 : Vec F S512x1 .f32) (b9 b10 : Vec F S1x2048 .f32) :=
  Σ' (L5 : List (View.Piece (Elt F) S1x512x1024 .f32)) (L6 : List (View.Piece (Elt F) S1x2048x1024 .f32))
     (L7 : List (View.Piece (Elt F) S512x1 .f32)) (L8 : List (View.Piece (Elt F) S512x1 .f32)) (L9 : List (View.Piece (Elt F) S1x2048 .f32)),
    { L10 : List (View.Piece (Elt F) S1x2048 .f32) //
      Runs c i arg3 harg3 arg4 harg4 arg5 harg5 arg6 harg6 arg7 harg7 arg8 harg8 arg9 harg9 arg10 harg10 x0 x1 y5 y6 s7 s8 s9 s10
        (arg5.view.loc (c : Thread nD τ) ↦[arg5.view.set]{fullShare} arg5.view.writes (Elt F) (harg5.unread b5) L5)
        (arg6.view.loc (c : Thread nD τ) ↦[arg6.view.set]{fullShare} arg6.view.writes (Elt F) (harg6.unread b6) L6)
        (arg7.view.loc (c : Thread nD τ) ↦[arg7.view.set]{fullShare} arg7.view.writes (Elt F) (harg7.unread b7) L7)
        (arg8.view.loc (c : Thread nD τ) ↦[arg8.view.set]{fullShare} arg8.view.writes (Elt F) (harg8.unread b8) L8)
        (arg9.view.loc (c : Thread nD τ) ↦[arg9.view.set]{fullShare} arg9.view.writes (Elt F) (harg9.unread b9) L9)
        (arg10.view.loc (c : Thread nD τ) ↦[arg10.view.set]{fullShare} arg10.view.writes (Elt F) (harg10.unread b10) L10) }

/-- One grid point: the body leaves the one-point function of what it found in the six written buffers. -/
def Sound : Prop :=
  Runs c i arg3 harg3 arg4 harg4 arg5 harg5 arg6 harg6 arg7 harg7 arg8 harg8 arg9 harg9 arg10 harg10 x0 x1 y5 y6 s7 s8 s9 s10
    (owns (c : Thread nD τ) arg5 fullShare (nx5 i x0 x1 y5 s7 s8)) (owns (c : Thread nD τ) arg6 fullShare (nx6 i x0 x1 y6 s9 s10))
    (owns (c : Thread nD τ) arg7 fullShare (nx7 i x0 x1 s7)) (owns (c : Thread nD τ) arg8 fullShare (nx8 i x0 x1 s7 s8))
    (owns (c : Thread nD τ) arg9 fullShare (nx9 i x0 x1 s9)) (owns (c : Thread nD τ) arg10 fullShare (nx10 i x0 x1 s9 s10))

variable {c i arg3 harg3 arg4 harg4 arg5 harg5 arg6 harg6 arg7 harg7 arg8 harg8 arg9 harg9 arg10 harg10 x0 x1 y5 y6 s7 s8 s9 s10}

/-- A run whose six piece lists read back as the one-point function is the one-point run. -/
theorem Ran.sound {b5 : Vec F S1x512x1024 .f32} {b6 : Vec F S1x2048x1024 .f32} {b7 b8 : Vec F S512x1 .f32} {b9 b10 : Vec F S1x2048 .f32}
    (r : Ran c i arg3 harg3 arg4 harg4 arg5 harg5 arg6 harg6 arg7 harg7 arg8 harg8 arg9 harg9 arg10 harg10 x0 x1 y5 y6 s7 s8 s9 s10 b5 b6 b7 b8 b9 b10)
    (e5 : arg5.view.read (Elt F) (arg5.view.writes (Elt F) (harg5.unread b5) r.1) = nx5 i x0 x1 y5 s7 s8)
    (e6 : arg6.view.read (Elt F) (arg6.view.writes (Elt F) (harg6.unread b6) r.2.1) = nx6 i x0 x1 y6 s9 s10)
    (e7 : arg7.view.read (Elt F) (arg7.view.writes (Elt F) (harg7.unread b7) r.2.2.1) = nx7 i x0 x1 s7)
    (e8 : arg8.view.read (Elt F) (arg8.view.writes (Elt F) (harg8.unread b8) r.2.2.2.1) = nx8 i x0 x1 s7 s8)
    (e9 : arg9.view.read (Elt F) (arg9.view.writes (Elt F) (harg9.unread b9) r.2.2.2.2.1) = nx9 i x0 x1 s9)
    (e10 : arg10.view.read (Elt F) (arg10.view.writes (Elt F) (harg10.unread b10) r.2.2.2.2.2.1) = nx10 i x0 x1 s9 s10) :
    Sound c i arg3 harg3 arg4 harg4 arg5 harg5 arg6 harg6 arg7 harg7 arg8 harg8 arg9 harg9 arg10 harg10 x0 x1 y5 y6 s7 s8 s9 s10 := by
  unfold Sound Runs
  intro E K
  iintro ⟨H3, H4, H5, H6, H7, H8, H9, H10, Hk⟩
  iapply (r.2.2.2.2.2.2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  iapply Hk
  isplitl [H3]; · iexact H3
  isplitl [H4]; · iexact H4
  isplitl [H5]
  · unfold owns; iexists _; isplitr
    swap; · iexact H5
    ipureintro; exact e5
  isplitl [H6]
  · unfold owns; iexists _; isplitr
    swap; · iexact H6
    ipureintro; exact e6
  isplitl [H7]
  · unfold owns; iexists _; isplitr
    swap; · iexact H7
    ipureintro; exact e7
  isplitl [H8]
  · unfold owns; iexists _; isplitr
    swap; · iexact H8
    ipureintro; exact e8
  isplitl [H9]
  · unfold owns; iexists _; isplitr
    swap; · iexact H9
    ipureintro; exact e9
  unfold owns; iexists _; isplitr
  swap; · iexact H10
  ipureintro; exact e10

end Cert.KernelIdeal.Body

end
-- ==== Proof.BodyKernelIdeal.RunA.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

theorem part1A (h1 : c1 i) (h2 : c2 i) (E : Set ℕ) (Q : (Σ' (arg1 : BitVec 32) (arg2 : BitVec 32) (v12 : FVec F S512x1024 .bf16) (v16 : FVec F S512x1024 .bf16) (v24 : FVec F S512x512 .f32) (v28 : FVec F S512x1 .f32) (v30 : FVec F S512x1 .f32) (v33 : FVec F S512x512 .f32), FVec F S512x1 .f32) → sProp 𝕄) :
    iprop(owns (c : Thread nD τ) arg3 fullShare x0 ∗ owns (c : Thread nD τ) arg4 fullShare x1 ∗ owns (c : Thread nD τ) arg5 fullShare y5
        ∗ owns (c : Thread nD τ) arg6 fullShare y6 ∗ owns (c : Thread nD τ) arg7 fullShare s7 ∗ owns (c : Thread nD τ) arg8 fullShare s8
        ∗ owns (c : Thread nD τ) arg9 fullShare s9 ∗ owns (c : Thread nD τ) arg10 fullShare s10
        ∗ (iprop(owns (c : Thread nD τ) arg3 fullShare x0 ∗ owns (c : Thread nD τ) arg4 fullShare x1
            ∗ owns (c : Thread nD τ) arg5 fullShare (k0_pay8 (F := F)) ∗ owns (c : Thread nD τ) arg6 fullShare (k0_pay5 (F := F))
            ∗ owns (c : Thread nD τ) arg7 fullShare (k0_pay9 (F := F)) ∗ owns (c : Thread nD τ) arg8 fullShare (k0_pay10 (F := F))
            ∗ owns (c : Thread nD τ) arg9 fullShare (k0_pay6 (F := F)) ∗ owns (c : Thread nD τ) arg10 fullShare (k0_pay7 (F := F)))
          -∗ Q ⟨BitVec.ofNat 32 (i 1).val, BitVec.ofNat 32 (i 2).val, k0_pay13 x0, k0_pay14 x1, k0_pay15 x0 x1,
              k0_pay16 x0 x1 (k0_pay9 (F := F)), k0_pay17 x0 x1 (k0_pay9 (F := F)), k0_pay18 x0 x1 (k0_pay9 (F := F)),
              k0_pay19 x0 x1 (k0_pay9 (F := F)) (k0_pay10 (F := F))⟩))
      ⊢ wp frame (wpE (defs₀ (F := F)) Variants.none c none) E (k0_part1 i arg3 harg3 arg4 harg4 arg5 harg5 arg6 harg6 arg7 harg7 arg8 harg8 arg9 harg9 arg10 harg10) Q := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2)
  sl_step
  sl_unfold_run_names
  simp only [View.readCov_cons_toLoadRect, View.readAt_eq_ld, Memref.IsWhole.read_unread, View.ld_unit_zero (S := S1x512x1024) hz3, View.ld_unit_zero (S := S512x1) hz2]
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; rw [read_writes_cons_overlay]; exact overlay_unit_zero (S := S1x512x1024) hz3 _ _ _
  isplitl [H6]
  · iexists _; isplitr
    swap; · iexact H6
    ipureintro; rw [read_writes_cons_overlay]; exact overlay_unit_zero (S := S1x2048x1024) hz3 _ _ _
  isplitl [H7]
  · iexists _; isplitr
    swap; · iexact H7
    ipureintro; rw [read_writes_cons_overlay]; exact overlay_unit_zero (S := S512x1) hz2 _ _ _
  isplitl [H8]
  · iexists _; isplitr
    swap; · iexact H8
    ipureintro; rw [read_writes_cons_overlay]; exact overlay_unit_zero (S := S512x1) hz2 _ _ _
  isplitl [H9]
  · iexists _; isplitr
    swap; · iexact H9
    ipureintro; rw [read_writes_cons_overlay]; exact overlay_unit_zero (S := S1x2048) hz2 _ _ _
  iexists _; isplitr
  swap; · iexact H10
  ipureintro; rw [read_writes_cons_overlay]; exact overlay_unit_zero (S := S1x2048) hz2 _ _ _

set_option maxHeartbeats 4000000 in
/-- A batch element's first point, both resets: the body's first part, then the rest from the reset contents. -/
noncomputable def runA (h1 : c1 i) (h2 : c2 i) (h3 : ¬c3 i) (h4 : ¬c4 i) :
    Ran c i arg3 harg3 arg4 harg4 arg5 harg5 arg6 harg6 arg7 harg7 arg8 harg8 arg9 harg9 arg10 harg10 x0 x1 y5 y6 s7 s8 s9 s10 (k0_pay8 (F := F)) (k0_pay5 (F := F)) (k0_pay9 (F := F)) (k0_pay10 (F := F)) (k0_pay6 (F := F)) (k0_pay7 (F := F)) := by
  refine ⟨?_, ?_, ?_, ?_, ?_, ?_, fun E K => ?run⟩
  case run =>
    simp only [cc0__dual_softmax_kernel_eq_skeleton]; unfold cc0__dual_softmax_kernel_skel
    rw [wp_bind]
    iintro ⟨H3, H4, H5, H6, H7, H8, H9, H10, Hk⟩
    iapply (part1A h1 h2 E _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    dsimp only
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundA (h1 : c1 i) (h2 : c2 i) (h3 : ¬c3 i) (h4 : ¬c4 i) : Sound c i arg3 harg3 arg4 harg4 arg5 harg5 arg6 harg6 arg7 harg7 arg8 harg8 arg9 harg9 arg10 harg10 x0 x1 y5 y6 s7 s8 s9 s10 := by
  refine (runA h1 h2 h3 h4).sound ?_ ?_ ?_ ?_ ?_ ?_ <;>
    (unfold runA; dsimp only; sl_unfold_run_names
     simp only [nx5, nx6, nx7, nx8, nx9, nx10, mid5, mid6, new6, new10, old6, old9, old10, a5, b6, m7, l8, m9, l10, colRect, rowRect, colRect', rowRect',
       if_pos h1, if_pos h2, if_neg h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.RunB.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A point in the middle of both sweeps: no reset, no normalisation. -/
noncomputable def runB (h1 : ¬c1 i) (h2 : ¬c2 i) (h3 : ¬c3 i) (h4 : ¬c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundB (h1 : ¬c1 i) (h2 : ¬c2 i) (h3 : ¬c3 i) (h4 : ¬c4 i) : Sound c i arg3 harg3 arg4 harg4 arg5 harg5 arg6 harg6 arg7 harg7 arg8 harg8 arg9 harg9 arg10 harg10 x0 x1 y5 y6 s7 s8 s9 s10 := by
  refine (runB h1 h2 h3 h4).sound ?_ ?_ ?_ ?_ ?_ ?_ <;>
    (unfold runB; dsimp only; sl_unfold_run_names
     simp only [nx5, nx6, nx7, nx8, nx9, nx10, mid5, mid6, new6, new10, old6, old9, old10, a5, b6, m7, l8, m9, l10, colRect, rowRect, colRect', rowRect',
       if_neg h1, if_neg h2, if_neg h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.RunC.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A row tile's last column tile: the row accumulator is normalised. -/
noncomputable def runC (h1 : ¬c1 i) (h2 : ¬c2 i) (h3 : c3 i) (h4 : ¬c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundC (h1 : ¬c1 i) (h2 : ¬c2 i) (h3 : c3 i) (h4 : ¬c4 i) : Sound c i arg3 harg3 arg4 harg4 arg5 harg5 arg6 harg6 arg7 harg7 arg8 harg8 arg9 harg9 arg10 harg10 x0 x1 y5 y6 s7 s8 s9 s10 := by
  refine (runC h1 h2 h3 h4).sound ?_ ?_ ?_ ?_ ?_ ?_ <;>
    (unfold runC; dsimp only; sl_unfold_run_names
     simp only [nx5, nx6, nx7, nx8, nx9, nx10, mid5, mid6, new6, new10, old6, old9, old10, a5, b6, m7, l8, m9, l10, colRect, rowRect, colRect', rowRect',
       if_neg h1, if_neg h2, if_pos h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.RunD.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A later row tile's first column tile: the row statistics are reset. -/
noncomputable def runD (h1 : ¬c1 i) (h2 : c2 i) (h3 : ¬c3 i) (h4 : ¬c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundD (h1 : ¬c1 i) (h2 : c2 i) (h3 : ¬c3 i) (h4 : ¬c4 i) : Sound c i arg3 harg3 arg4 harg4 arg5 harg5 arg6 harg6 arg7 harg7 arg8 harg8 arg9 harg9 arg10 harg10 x0 x1 y5 y6 s7 s8 s9 s10 := by
  refine (runD h1 h2 h3 h4).sound ?_ ?_ ?_ ?_ ?_ ?_ <;>
    (unfold runD; dsimp only; sl_unfold_run_names
     simp only [nx5, nx6, nx7, nx8, nx9, nx10, mid5, mid6, new6, new10, old6, old9, old10, a5, b6, m7, l8, m9, l10, colRect, rowRect, colRect', rowRect',
       if_neg h1, if_pos h2, if_neg h3, if_neg h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.RunE.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- The last row tile's first column tile: the row statistics are reset and the column tile is normalised. -/
noncomputable def runE (h1 : ¬c1 i) (h2 : c2 i) (h3 : ¬c3 i) (h4 : c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundE (h1 : ¬c1 i) (h2 : c2 i) (h3 : ¬c3 i) (h4 : c4 i) : Sound c i arg3 harg3 arg4 harg4 arg5 harg5 arg6 harg6 arg7 harg7 arg8 harg8 arg9 harg9 arg10 harg10 x0 x1 y5 y6 s7 s8 s9 s10 := by
  refine (runE h1 h2 h3 h4).sound ?_ ?_ ?_ ?_ ?_ ?_ <;>
    (unfold runE; dsimp only; sl_unfold_run_names
     simp only [nx5, nx6, nx7, nx8, nx9, nx10, mid5, mid6, new6, new10, old6, old9, old10, a5, b6, m7, l8, m9, l10, colRect, rowRect, colRect', rowRect',
       if_neg h1, if_pos h2, if_neg h3, if_pos h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.RunF.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A middle column tile of the last row tile: the column tile is normalised. -/
noncomputable def runF (h1 : ¬c1 i) (h2 : ¬c2 i) (h3 : ¬c3 i) (h4 : c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundF (h1 : ¬c1 i) (h2 : ¬c2 i) (h3 : ¬c3 i) (h4 : c4 i) : Sound c i arg3 harg3 arg4 harg4 arg5 harg5 arg6 harg6 arg7 harg7 arg8 harg8 arg9 harg9 arg10 harg10 x0 x1 y5 y6 s7 s8 s9 s10 := by
  refine (runF h1 h2 h3 h4).sound ?_ ?_ ?_ ?_ ?_ ?_ <;>
    (unfold runF; dsimp only; sl_unfold_run_names
     simp only [nx5, nx6, nx7, nx8, nx9, nx10, mid5, mid6, new6, new10, old6, old9, old10, a5, b6, m7, l8, m9, l10, colRect, rowRect, colRect', rowRect',
       if_neg h1, if_neg h2, if_neg h3, if_pos h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.RunG.lean ====
import proofs.«413194_j57758720196677_3_alg».proof.Proof.BodyKernelIdeal.Point

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
    {arg3 : Memref sig .tc .vmem S1x512x1024 .f32} {harg3 : arg3.IsWhole} {arg4 : Memref sig .tc .vmem S1x512x1024 .f32} {harg4 : arg4.IsWhole}
    {arg5 : Memref sig .tc .vmem S1x512x1024 .f32} {harg5 : arg5.IsWhole} {arg6 : Memref sig .tc .vmem S1x2048x1024 .f32} {harg6 : arg6.IsWhole}
    {arg7 : Memref sig .tc .vmem S512x1 .f32} {harg7 : arg7.IsWhole} {arg8 : Memref sig .tc .vmem S512x1 .f32} {harg8 : arg8.IsWhole}
    {arg9 : Memref sig .tc .vmem S1x2048 .f32} {harg9 : arg9.IsWhole} {arg10 : Memref sig .tc .vmem S1x2048 .f32} {harg10 : arg10.IsWhole}
    {x0 x1 y5 : Vec F S1x512x1024 .f32} {y6 : Vec F S1x2048x1024 .f32} {s7 s8 : Vec F S512x1 .f32} {s9 s10 : Vec F S1x2048 .f32}

set_option maxHeartbeats 4000000 in
/-- A batch element's last point: both normalisations. -/
noncomputable def runG (h1 : ¬c1 i) (h2 : ¬c2 i) (h3 : c3 i) (h4 : c4 i) :
    Ran c i arg3 harg3 arg4 harg4 arg5 harg5 arg6 harg6 arg7 harg7 arg8 harg8 arg9 harg9 arg10 harg10 x0 x1 y5 y6 s7 s8 s9 s10 y5 y6 s7 s8 s9 s10 := by
  refine ⟨?_, ?_, ?_, ?_, ?_, ?_, fun E K => ?run⟩
  case run =>
    simp only [cc0__dual_softmax_kernel_eq_skeleton]; unfold cc0__dual_softmax_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg7.eq_unread hf7; obtain rfl := harg8.eq_unread hf8; obtain rfl := harg9.eq_unread hf9; obtain rfl := harg10.eq_unread hf10
    sl_exec (disch := first | exact h1 | exact h2 | exact h3 | exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]; · iexact H5
    isplitl [H6]; · iexact H6
    isplitl [H7]; · iexact H7
    isplitl [H8]; · iexact H8
    isplitl [H9]; · iexact H9
    iexact H10

theorem soundG (h1 : ¬c1 i) (h2 : ¬c2 i) (h3 : c3 i) (h4 : c4 i) : Sound c i arg3 harg3 arg4 harg4 arg5 harg5 arg6 harg6 arg7 harg7 arg8 harg8 arg9 harg9 arg10 harg10 x0 x1 y5 y6 s7 s8 s9 s10 := by
  refine (runG h1 h2 h3 h4).sound ?_ ?_ ?_ ?_ ?_ ?_ <;>
    (unfold runG; dsimp only; sl_unfold_run_names
     simp only [nx5, nx6, nx7, nx8, nx9, nx10, mid5, mid6, new6, new10, old6, old9, old10, a5, b6, m7, l8, m9, l10, colRect, rowRect, colRect', rowRect',
       if_neg h1, if_neg h2, if_pos h3, if_pos h4, k0_off1, k0_off2, k0_off3, k0_off4,
       read_writes_cons_overlay, read_writes_nil, View.readCov_cons_toLoadRect]
     simp only [View.readCov_eq_canon', View.readAt_eq_ld, Memref.IsWhole.read_unread, View.ld_unit_zero (S := S1x512x1024) hz3, View.ld_unit_zero (S := S512x1) hz2,
       View.canon_unit_zero (S := S512x1) hz2, View.canon_unit_zero (S := S1x2048) hz2, View.canon_unit_zero (S := S1x512x1024) hz3, View.canon_unit_zero (S := S1x2048x1024) hz3,
       overlay_unit_zero (S := S512x1) hz2, overlay_unit_zero (S := S1x2048) hz2, overlay_unit_zero (S := S1x512x1024) hz3, overlay_unit_zero (S := S1x2048x1024) hz3])

end Cert.KernelIdeal.Body

end
-- ==== Proof.BodyKernelIdeal.Cases.lean ====
import proofs.«413194_j57758720196677_3_alg».proof.Proof.BodyKernelIdeal.RunA
import proofs.«413194_j57758720196677_3_alg».proof.Proof.BodyKernelIdeal.RunB
import proofs.«413194_j57758720196677_3_alg».proof.Proof.BodyKernelIdeal.RunC
import proofs.«413194_j57758720196677_3_alg».proof.Proof.BodyKernelIdeal.RunD
import proofs.«413194_j57758720196677_3_alg».proof.Proof.BodyKernelIdeal.RunE
import proofs.«413194_j57758720196677_3_alg».proof.Proof.BodyKernelIdeal.RunF
import proofs.«413194_j57758720196677_3_alg».proof.Proof.BodyKernelIdeal.RunG

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_point (c : Dev nD) (t : Fin cfg0.N)
    (arg3 : Memref sig .tc .vmem S1x512x1024 .f32) (harg3 : arg3.IsWhole) (arg4 : Memref sig .tc .vmem S1x512x1024 .f32) (harg4 : arg4.IsWhole)
    (arg5 : Memref sig .tc .vmem S1x512x1024 .f32) (harg5 : arg5.IsWhole) (arg6 : Memref sig .tc .vmem S1x2048x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S1x2048 .f32) (harg9 : arg9.IsWhole) (arg10 : Memref sig .tc .vmem S1x2048 .f32) (harg10 : arg10.IsWhole)
    (x0 x1 y5 : Vec F S1x512x1024 .f32) (y6 : Vec F S1x2048x1024 .f32) (s7 s8 : Vec F S512x1 .f32) (s9 s10 : Vec F S1x2048 .f32) :
    Sound c (grid0.coords t) arg3 harg3 arg4 harg4 arg5 harg5 arg6 harg6 arg7 harg7 arg8 harg8 arg9 harg9 arg10 harg10 x0 x1 y5 y6 s7 s8 s9 s10 := by
  have e1 := hc1 t
  have e2 := hc2 t
  have e3 := hc3 t
  have e4 := hc4 t
  by_cases h1 : c1 (grid0.coords t)
  · have k1 := e1.mp h1
    by_cases h2 : c2 (grid0.coords t)
    · by_cases h3 : c3 (grid0.coords t)
      · have k3 := e3.mp h3
        exfalso; omega
      · by_cases h4 : c4 (grid0.coords t)
        · have k4 := e4.mp h4
          exfalso; omega
        · exact soundA h1 h2 h3 h4
    · have k2 : ¬ t.val % 4 = 0 := fun e => h2 (e2.mpr e)
      exfalso; omega
  · by_cases h2 : c2 (grid0.coords t)
    · have k2 := e2.mp h2
      by_cases h3 : c3 (grid0.coords t)
      · have k3 := e3.mp h3
        exfalso; omega
      · by_cases h4 : c4 (grid0.coords t)
        · exact soundE h1 h2 h3 h4
        · exact soundD h1 h2 h3 h4
    · by_cases h3 : c3 (grid0.coords t)
      · by_cases h4 : c4 (grid0.coords t)
        · exact soundG h1 h2 h3 h4
        · exact soundC h1 h2 h3 h4
      · by_cases h4 : c4 (grid0.coords t)
        · exact soundF h1 h2 h3 h4
        · exact soundB h1 h2 h3 h4

end Cert.KernelIdeal.Body

end
-- ==== Proof.BodyKernelIdeal.Frame.lean ====
import proofs.«413194_j57758720196677_3_alg».proof.Proof.BodyKernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

structure Bufs (F : FTy → Type) [FloatOps F] where
  y5 : Vec F S1x512x1024 .f32
  y6 : Vec F S1x2048x1024 .f32
  s7 : Vec F S512x1 .f32
  s8 : Vec F S512x1 .f32
  s9 : Vec F S1x2048 .f32
  s10 : Vec F S1x2048 .f32

def nxAll (i : grid0.Coords) (x0 x1 : Vec F S1x512x1024 .f32) (b : Bufs F) : Bufs F where
  y5 := nx5 i x0 x1 b.y5 b.s7 b.s8
  y6 := nx6 i x0 x1 b.y6 b.s9 b.s10
  s7 := nx7 i x0 x1 b.s7
  s8 := nx8 i x0 x1 b.s7 b.s8
  s9 := nx9 i x0 x1 b.s9
  s10 := nx10 i x0 x1 b.s9 b.s10

theorem ite_congr_not {α : Type} {p : Prop} [Decidable p] {k a b : α} (h : ¬p → a = b) :
    (if p then k else a) = (if p then k else b) := by
  by_cases hp : p
  · rw [if_pos hp, if_pos hp]
  · rw [if_neg hp, if_neg hp, h hp]

theorem nxAll_congr (i : grid0.Coords) (x0 x1 : Vec F S1x512x1024 .f32) (b b' : Bufs F)
    (h5 : ¬c2 i → b.y5 = b'.y5) (h7 : ¬c2 i → b.s7 = b'.s7) (h8 : ¬c2 i → b.s8 = b'.s8)
    (h6 : ¬c1 i → b.y6 = b'.y6) (h9 : ¬c1 i → b.s9 = b'.s9) (h10 : ¬c1 i → b.s10 = b'.s10) :
    nxAll i x0 x1 b = nxAll i x0 x1 b' := by
  have e7 : m7 i b.s7 = m7 i b'.s7 := ite_congr_not h7
  have e8 : l8 i b.s8 = l8 i b'.s8 := ite_congr_not h8
  have e5 : a5 i b.y5 = a5 i b'.y5 := ite_congr_not h5
  have e9 : m9 i b.s9 = m9 i b'.s9 := ite_congr_not h9
  have e10 : l10 i b.s10 = l10 i b'.s10 := ite_congr_not h10
  have e6 : b6 i b.y6 = b6 i b'.y6 := ite_congr_not h6
  unfold nxAll nx5 nx6 nx7 nx8 nx9 nx10 mid5 mid6 new6 new10 old6 old9 old10
  simp only [e5, e6, e7, e8, e9, e10]

/-- The six buffers after point `n`: the one-point function iterated along the grid. -/
def outsAt (c : Dev nD) : (n : ℕ) → n < cfg0.N → Bufs F
  | 0, h => nxAll (grid0.coords ⟨0, h⟩) (iblk m c 0 ⟨0, h⟩) (iblk m c 1 ⟨0, h⟩)
      ⟨k0_pay8 (F := F), k0_pay5 (F := F), k0_pay9 (F := F), k0_pay10 (F := F), k0_pay6 (F := F), k0_pay7 (F := F)⟩
  | n + 1, h => nxAll (grid0.coords ⟨n + 1, h⟩) (iblk m c 0 ⟨n + 1, h⟩) (iblk m c 1 ⟨n + 1, h⟩) (outsAt c n (Nat.lt_of_succ_lt h))

theorem outsAt_pos (c : Dev nD) (t : Fin cfg0.N) (ht : t.val ≠ 0) :
    outsAt m c t.val t.isLt = nxAll (grid0.coords t) (iblk m c 0 t) (iblk m c 1 t)
      (outsAt m c (t.val - 1) (Nat.lt_of_le_of_lt (Nat.sub_le _ _) t.isLt)) := by
  obtain ⟨n, hn⟩ := t
  cases n with
  | zero => exact absurd rfl ht
  | succ n => rfl

def PhiS (c : Dev nD) : (n : ℕ) → n ≤ cfg0.N → sProp 𝕄
  | 0, _ => Pipeline.ΦA spec0 c
  | n + 1, hn => iprop(iprop(owns (c : Thread nD τ) sc7 fullShare (outsAt m c n hn).s7 ∗ owns (c : Thread nD τ) sc8 fullShare (outsAt m c n hn).s8
      ∗ owns (c : Thread nD τ) sc9 fullShare (outsAt m c n hn).s9 ∗ owns (c : Thread nD τ) sc10 fullShare (outsAt m c n hn).s10) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc7 fullShare (outsAt m c n hn).s7 ∗ owns (c : Thread nD τ) sc8 fullShare (outsAt m c n hn).s8
      ∗ owns (c : Thread nD τ) sc9 fullShare (outsAt m c n hn).s9 ∗ owns (c : Thread nD τ) sc10 fullShare (outsAt m c n hn).s10) ∗ (∃ r, prngReg c r)) := rfl

theorem PhiS_pos (c : Dev nD) (n : ℕ) (h : n ≤ cfg0.N) (hz : n ≠ 0) :
    PhiS m c n h = iprop(iprop(owns (c : Thread nD τ) sc7 fullShare (outsAt m c (n - 1) (by omega)).s7 ∗ owns (c : Thread nD τ) sc8 fullShare (outsAt m c (n - 1) (by omega)).s8
      ∗ owns (c : Thread nD τ) sc9 fullShare (outsAt m c (n - 1) (by omega)).s9 ∗ owns (c : Thread nD τ) sc10 fullShare (outsAt m c (n - 1) (by omega)).s10) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).y5
    | ⟨3, _⟩ => (outsAt m c t.val t.isLt).y6
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).y5 := by dsimp only [dats]
theorem after3 (c : Dev nD) (t : Fin cfg0.N) : (dats m 0 c).after 3 t = (outsAt m c t.val t.isLt).y6 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

theorem before2 (c : Dev nD) (t : Fin cfg0.N) (h : ¬c2 (grid0.coords t)) (d) :
    (dats m 0 c).before 2 t d = (outsAt m c (t.val - 1) (Nat.lt_of_le_of_lt (Nat.sub_le _ _) t.isLt)).y5 := by
  have h4 : t.val % 4 ≠ 0 := fun e => h ((hc2 t).mpr e)
  have ht : t.val ≠ 0 := fun e => h4 (by rw [e])
  rw [Dat.before_out_kept _ 2 rfl t ht (Bool.eq_false_iff.mpr fun hf => by have := (flush0_2 _).mp hf; dsimp only at this; omega)
    (fun _ => rfl) (fun _ _ => rfl), after2]

theorem before3 (c : Dev nD) (t : Fin cfg0.N) (h : ¬c1 (grid0.coords t)) (d) :
    (dats m 0 c).before 3 t d = (outsAt m c (t.val - 1) (Nat.lt_of_le_of_lt (Nat.sub_le _ _) t.isLt)).y6 := by
  have h16 : t.val % 16 ≠ 0 := fun e => h ((hc1 t).mpr e)
  have ht : t.val ≠ 0 := fun e => h16 (by rw [e])
  rw [Dat.before_out_kept _ 3 rfl t ht (Bool.eq_false_iff.mpr fun hf => by have := (flush0_3 _).mp hf; dsimp only at this; omega)
    (fun _ => rfl) (fun _ _ => rfl), after3]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live0 w]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, after0, after1, after2, after3]
  by_cases hz : t.val = 0
  ·
    have hc1' : c1 (grid0.coords t) := (hc1 t).mpr (by rw [hz])
    have hc2' : c2 (grid0.coords t) := (hc2 t).mpr (by rw [hz])
    rw [PhiS_castSucc m c t, PhiS_zero m c _ _ hz, PhiA0_eq]
    iintro ⟨⟨⟨⟨%d7, H7⟩, ⟨%d8, H8⟩, ⟨%d9, H9⟩, ⟨%d10, H10⟩⟩, Hg⟩, Ho, ⟨%d0, H0⟩, ⟨%d1, H1⟩, ⟨%d5, H5⟩, ⟨%d6, H6⟩⟩
    iapply (sound_point c t _ _ _ _ _ _ _ _ _ _ _ _ _ _ _ _ (iblk m c 0 t) (iblk m c 1 t) _ _ d7 d8 d9 d10 Set.univ _)
    isplitl [H0]; · iexact H0
    isplitl [H1]; · iexact H1
    isplitl [H5]; · iexact H5
    isplitl [H6]; · iexact H6
    isplitl [H7]; · iexact H7
    isplitl [H8]; · iexact H8
    isplitl [H9]; · iexact H9
    isplitl [H10]; · iexact H10
    have e : outsAt m c t.val t.isLt = nxAll (grid0.coords t) (iblk m c 0 t) (iblk m c 1 t)
        ⟨(dats m 0 c).before 2 t d5, (dats m 0 c).before 3 t d6, d7, d8, d9, d10⟩ := by
      obtain ⟨n, hn⟩ := t
      obtain rfl : n = 0 := hz
      exact nxAll_congr _ _ _ _ _ (fun h => absurd hc2' h) (fun h => absurd hc2' h) (fun h => absurd hc2' h)
        (fun h => absurd hc1' h) (fun h => absurd hc1' h) (fun h => absurd hc1' h)
    rw [e]
    iintro ⟨H0, H1, H5, H6, H7, H8, H9, H10⟩
    isplitl [H7 H8 H9 H10 Hg]
    · isplitl [H7 H8 H9 H10]
      · isplitl [H7]; · iexact H7
        isplitl [H8]; · iexact H8
        isplitl [H9]; · iexact H9
        iexact H10
      iexact Hg
    isplitl [Ho]; · iexact Ho
    isplitl [H0]; · iexact H0
    isplitl [H1]; · iexact H1
    isplitl [H5]; · iexact H5
    iexact H6
  ·
    rw [PhiS_castSucc m c t, PhiS_pos m c _ _ hz]
    iintro ⟨⟨⟨H7, H8, H9, H10⟩, Hg⟩, Ho, ⟨%d0, H0⟩, ⟨%d1, H1⟩, ⟨%d5, H5⟩, ⟨%d6, H6⟩⟩
    iapply (sound_point c t _ _ _ _ _ _ _ _ _ _ _ _ _ _ _ _ (iblk m c 0 t) (iblk m c 1 t) _ _ _ _ _ _ Set.univ _)
    isplitl [H0]; · iexact H0
    isplitl [H1]; · iexact H1
    isplitl [H5]; · iexact H5
    isplitl [H6]; · iexact H6
    isplitl [H7]; · iexact H7
    isplitl [H8]; · iexact H8
    isplitl [H9]; · iexact H9
    isplitl [H10]; · iexact H10
    have e : outsAt m c t.val t.isLt = nxAll (grid0.coords t) (iblk m c 0 t) (iblk m c 1 t)
        ⟨(dats m 0 c).before 2 t d5, (dats m 0 c).before 3 t d6,
          (outsAt m c (t.val - 1) (Nat.lt_of_le_of_lt (Nat.sub_le _ _) t.isLt)).s7, (outsAt m c (t.val - 1) (Nat.lt_of_le_of_lt (Nat.sub_le _ _) t.isLt)).s8,
          (outsAt m c (t.val - 1) (Nat.lt_of_le_of_lt (Nat.sub_le _ _) t.isLt)).s9, (outsAt m c (t.val - 1) (Nat.lt_of_le_of_lt (Nat.sub_le _ _) t.isLt)).s10⟩ := by
      rw [outsAt_pos m c t hz]
      exact nxAll_congr _ _ _ _ _ (fun h => (before2 m c t h d5).symm) (fun _ => rfl) (fun _ => rfl)
        (fun h => (before3 m c t h d6).symm) (fun _ => rfl) (fun _ => rfl)
    rw [e]
    iintro ⟨H0, H1, H5, H6, H7, H8, H9, H10⟩
    isplitl [H7 H8 H9 H10 Hg]
    · isplitl [H7 H8 H9 H10]
      · isplitl [H7]; · iexact H7
        isplitl [H8]; · iexact H8
        isplitl [H9]; · iexact H9
        iexact H10
      iexact Hg
    isplitl [Ho]; · iexact Ho
    isplitl [H0]; · iexact H0
    isplitl [H1]; · iexact H1
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨H7, H8, H9, H10⟩, Hg⟩
  isplitl [H7 H8 H9 H10]
  · isplitl [H7]; · iexists _; iexact H7
    isplitl [H8]; · iexists _; iexact H8
    isplitl [H9]; · iexists _; iexact H9
    iexists _; iexact H10
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution ends, without a fault, with both arguments as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
import Idealize.ShloMosaic.PureOps.Ideal
import Mathlib.Algebra.BigOperators.Fin
import Mathlib.Order.Fin.Basic

noncomputable section

open scoped BigOperators

namespace DualSoftmax

open Idealize.ShloMosaic

abbrev Tile : Type := Fin 512 → Fin 1024 → EReal

abbrev Arr : Type := Fin 2048 → Fin 1024 → EReal

def tileOf (x : Arr) (t : Fin 4) : Tile := fun r k => x ⟨512 * t.val + r.val, by have := t.isLt; have := r.isLt; omega⟩ k

/-- The score of a row of `A` against a row of `B`; the two extra sums vanish when the entries are real. -/
def sc (A B : Tile) (r c : Fin 512) : EReal :=
  (∑ k : Fin 1024, A r k * B c k + ∑ k : Fin 1024, A r k * (B c k - B c k)) + ∑ k : Fin 1024, (A r k - A r k) * B c k

/-- Both accumulators, each with its running maxima and running sums. -/
structure St where
  ao : Fin 512 → Fin 1024 → EReal
  bo : Fin 2048 → Fin 1024 → EReal
  ma : Fin 512 → EReal
  la : Fin 512 → EReal
  mb : Fin 2048 → EReal
  lb : Fin 2048 → EReal

def ma0 (jj : Fin 4) (s : St) (r : Fin 512) : EReal := if jj = 0 then ⊥ else s.ma r
def la0 (jj : Fin 4) (s : St) (r : Fin 512) : EReal := if jj = 0 then 0 else s.la r
def ao0 (jj : Fin 4) (s : St) (r : Fin 512) (d : Fin 1024) : EReal := if jj = 0 then 0 else s.ao r d

def rmax (A B : Tile) (r : Fin 512) : EReal := Finset.univ.sup fun c : Fin 512 => sc A B r c
def maN (jj : Fin 4) (A B : Tile) (s : St) (r : Fin 512) : EReal := max (ma0 jj s r) (rmax A B r)
def alpha (jj : Fin 4) (A B : Tile) (s : St) (r : Fin 512) : EReal := Ideal.exp (ma0 jj s r - maN jj A B s r)
def pr (jj : Fin 4) (A B : Tile) (s : St) (r c : Fin 512) : EReal := Ideal.exp (sc A B r c - maN jj A B s r)
def laN (jj : Fin 4) (A B : Tile) (s : St) (r : Fin 512) : EReal :=
  alpha jj A B s r * la0 jj s r + ∑ c : Fin 512, pr jj A B s r c
def aoM (jj : Fin 4) (A B : Tile) (s : St) (r : Fin 512) (d : Fin 1024) : EReal :=
  alpha jj A B s r * ao0 jj s r d + ∑ c : Fin 512, pr jj A B s r c * B c d
def aoN (jj : Fin 4) (A B : Tile) (s : St) (r : Fin 512) (d : Fin 1024) : EReal :=
  if jj = 3 then Ideal.div (aoM jj A B s r d) (laN jj A B s r) else aoM jj A B s r d

def inTile (jj : Fin 4) (g : Fin 2048) : Prop := g.val / 512 = jj.val
instance (jj : Fin 4) (g : Fin 2048) : Decidable (inTile jj g) := by unfold inTile; infer_instance

def loc (g : Fin 2048) : Fin 512 := ⟨g.val % 512, Nat.mod_lt _ (by decide)⟩

def mb0 (ii jj : Fin 4) (s : St) (g : Fin 2048) : EReal := if ii = 0 ∧ jj = 0 then ⊥ else s.mb g
def lb0 (ii jj : Fin 4) (s : St) (g : Fin 2048) : EReal := if ii = 0 ∧ jj = 0 then 0 else s.lb g
def bo0 (ii jj : Fin 4) (s : St) (g : Fin 2048) (d : Fin 1024) : EReal := if ii = 0 ∧ jj = 0 then 0 else s.bo g d

def cmax (A B : Tile) (c : Fin 512) : EReal := Finset.univ.sup fun r : Fin 512 => sc A B r c

def mbT (ii jj : Fin 4) (A B : Tile) (s : St) (g : Fin 2048) : EReal := max (mb0 ii jj s g) (cmax A B (loc g))
def beta (ii jj : Fin 4) (A B : Tile) (s : St) (g : Fin 2048) : EReal := Ideal.exp (mb0 ii jj s g - mbT ii jj A B s g)
def qc (ii jj : Fin 4) (A B : Tile) (s : St) (r : Fin 512) (g : Fin 2048) : EReal :=
  Ideal.exp (sc A B r (loc g) - mbT ii jj A B s g)
def mbN (ii jj : Fin 4) (A B : Tile) (s : St) (g : Fin 2048) : EReal :=
  if inTile jj g then mbT ii jj A B s g else mb0 ii jj s g
def lbN (ii jj : Fin 4) (A B : Tile) (s : St) (g : Fin 2048) : EReal :=
  if inTile jj g then beta ii jj A B s g * lb0 ii jj s g + ∑ r : Fin 512, qc ii jj A B s r g else lb0 ii jj s g
def boM (ii jj : Fin 4) (A B : Tile) (s : St) (g : Fin 2048) (d : Fin 1024) : EReal :=
  if inTile jj g then beta ii jj A B s g * bo0 ii jj s g d + ∑ r : Fin 512, qc ii jj A B s r g * A r d
  else bo0 ii jj s g d
def boN (ii jj : Fin 4) (A B : Tile) (s : St) (g : Fin 2048) (d : Fin 1024) : EReal :=
  if inTile jj g ∧ ii = 3 then Ideal.div (boM ii jj A B s g d) (lbN ii jj A B s g) else boM ii jj A B s g d

/-- One pair of tiles folded into both online softmax accumulations. -/
def step (ii jj : Fin 4) (A B : Tile) (s : St) : St where
  ao := aoN jj A B s
  bo := boN ii jj A B s
  ma := maN jj A B s
  la := laN jj A B s
  mb := mbN ii jj A B s
  lb := lbN ii jj A B s

def ptB (n : ℕ) : Fin 8 := ⟨n / 16 % 8, Nat.mod_lt _ (by decide)⟩
def ptI (n : ℕ) : Fin 4 := ⟨n / 4 % 4, Nat.mod_lt _ (by decide)⟩
def ptJ (n : ℕ) : Fin 4 := ⟨n % 4, Nat.mod_lt _ (by decide)⟩

/-- The state after grid point `n`, the tile pairs taken in the grid's order. -/
def kst (a b : Fin 8 → Arr) (s0 : St) : ℕ → St
  | 0 => step (ptI 0) (ptJ 0) (tileOf (a (ptB 0)) (ptI 0)) (tileOf (b (ptB 0)) (ptJ 0)) s0
  | n + 1 => step (ptI (n + 1)) (ptJ (n + 1)) (tileOf (a (ptB (n + 1))) (ptI (n + 1))) (tileOf (b (ptB (n + 1))) (ptJ (n + 1)))
      (kst a b s0 n)

def e (a b : Arr) (i j : Fin 2048) : EReal := ∑ k : Fin 1024, a i k * b j k
def rowMax (a b : Arr) (i : Fin 2048) : EReal := Finset.univ.sup fun j : Fin 2048 => e a b i j
def colMax (a b : Arr) (j : Fin 2048) : EReal := Finset.univ.sup fun i : Fin 2048 => e a b i j
/-- The first result: the scores' softmax along the columns, times `b`. -/
def rowRes (a b : Arr) (i : Fin 2048) (d : Fin 1024) : EReal :=
  ∑ j : Fin 2048, Ideal.div (Ideal.exp (e a b i j - rowMax a b i)) (∑ j' : Fin 2048, Ideal.exp (e a b i j' - rowMax a b i)) * b j d
/-- The second result: the scores' softmax along the rows, transposed, times `a`. -/
def colRes (a b : Arr) (j : Fin 2048) (d : Fin 1024) : EReal :=
  ∑ i : Fin 2048, Ideal.div (Ideal.exp (e a b i j - colMax a b j)) (∑ i' : Fin 2048, Ideal.exp (e a b i' j - colMax a b j)) * a i d

def IsRealArr (x : Fin 8 → Arr) : Prop := ∀ p i k, ∃ r : ℝ, x p i k = (r : EReal)

end DualSoftmax

end
-- ==== Proof.StepDefs.lean ====
import proofs.«413194_j57758720196677_3_alg».proof.Proof.BodyKernelIdeal.VStep
import proofs.«413194_j57758720196677_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.StepValue

open Cert.KernelIdeal Cert.KernelIdeal.Gen Cert.KernelIdeal.Body
open Idealize.ShloMosaic Idealize.ShloMosaic.ValueIdx

def tileV (x : Vec Ideal S1x512x1024 .f32) : DualSoftmax.Tile := fun r k => x (ix3 (0 : Fin 1) r k)

/-- The six buffers read as a state of the specification. -/
def stV (y5 : Vec Ideal S1x512x1024 .f32) (y6 : Vec Ideal S1x2048x1024 .f32) (s7 s8 : Vec Ideal S512x1 .f32)
    (s9 s10 : Vec Ideal S1x2048 .f32) : DualSoftmax.St where
  ao := fun r d => y5 (ix3 (0 : Fin 1) r d)
  bo := fun g d => y6 (ix3 (0 : Fin 1) g d)
  ma := fun r => s7 (ix2 r (0 : Fin 1))
  la := fun r => s8 (ix2 r (0 : Fin 1))
  mb := fun g => s9 (ix2 (0 : Fin 1) g)
  lb := fun g => s10 (ix2 (0 : Fin 1) g)

abbrev iiOf (i : grid0.Coords) : Fin 4 := ⟨(i 1).val, (i 1).isLt⟩
abbrev jjOf (i : grid0.Coords) : Fin 4 := ⟨(i 2).val, (i 2).isLt⟩

theorem c2_fin : ∀ n : Fin 4,
    (Scalar.cmpi .ne (Scalar.extui (Scalar.cmpi .eq (BitVec.ofNat 32 n.val) 0#32)) 0#32 = 1#1) ↔ n = 0 := by decide
theorem c3_fin : ∀ n : Fin 4,
    (Scalar.cmpi .ne (Scalar.extui (Scalar.cmpi .eq (BitVec.ofNat 32 n.val) 3#32)) 0#32 = 1#1) ↔ n = 3 := by decide
theorem c1_fin : ∀ m n : Fin 4,
    (Scalar.cmpi .ne (Scalar.extui (Scalar.andi (Scalar.cmpi .eq (BitVec.ofNat 32 m.val) 0#32)
      (Scalar.cmpi .eq (BitVec.ofNat 32 n.val) 0#32))) 0#32 = 1#1) ↔ (m = 0 ∧ n = 0) := by decide

theorem c2_iff (i : grid0.Coords) : c2 i ↔ jjOf i = 0 := c2_fin (jjOf i)
theorem c3_iff (i : grid0.Coords) : c3 i ↔ jjOf i = 3 := c3_fin (jjOf i)
theorem c1_iff (i : grid0.Coords) : c1 i ↔ (iiOf i = 0 ∧ jjOf i = 0) := c1_fin (iiOf i) (jjOf i)
theorem c4_iff (i : grid0.Coords) : c4 i ↔ iiOf i = 3 := c3_fin (iiOf i)

theorem pay11_apply (x : Vec Ideal S1x512x1024 .f32) (r : Fin 512) (k : Fin 1024) :
    k0_pay11 (F := Ideal) x (ix2 r k) = x (ix3 (0 : Fin 1) r k) := by
  unfold k0_pay11
  exact shapeCast_1ab_ab_apply x _ r k
theorem pay12_apply (x : Vec Ideal S1x512x1024 .f32) (r : Fin 512) (k : Fin 1024) :
    k0_pay12 (F := Ideal) x (ix2 r k) = x (ix3 (0 : Fin 1) r k) := by
  unfold k0_pay12
  exact shapeCast_1ab_ab_apply x _ r k

theorem pay13_apply (x : Vec Ideal S1x512x1024 .f32) (r : Fin 512) (k : Fin 1024) :
    k0_pay13 (F := Ideal) x (ix2 r k) = x (ix3 (0 : Fin 1) r k) := pay11_apply x r k
theorem pay14_apply (x : Vec Ideal S1x512x1024 .f32) (r : Fin 512) (k : Fin 1024) :
    k0_pay14 (F := Ideal) x (ix2 r k) = x (ix3 (0 : Fin 1) r k) := pay12_apply x r k

theorem lhs_dot1_0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_dot1_1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
theorem rhs_dot1_0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_dot1_1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

theorem dot1_apply (lhs rhs : FVec Ideal S512x1024 .bf16) (r c : Fin 512) :
    matmul dot_S512x1024_S512x1024_S512x512_1_1_0_0_n_n none lhs rhs (constant (F := Ideal) S512x512 .f32 0x00000000#32) (ix2 r c)
      = ∑ k : Fin 1024, lhs (ix2 r k) * rhs (ix2 c k) := by
  refine (Ideal.matmul_constant_zero_apply dot_S512x1024_S512x1024_S512x512_1_1_0_0_n_n none lhs rhs (ix2 r c)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r c) ((contrEquiv1 dot_S512x1024_S512x1024_S512x512_1_1_0_0_n_n 1024 rfl rfl).symm k) = ix2 r k := funext fun a => Fin.ext (by
    match a with
    | ⟨0, _⟩ => exact lhs_dot1_0 _ _
    | ⟨1, _⟩ => exact (lhs_dot1_1 _ _).trans hk)
  have er : dot_S512x1024_S512x1024_S512x512_1_1_0_0_n_n.rhsIdx (ix2 r c) ((contrEquiv1 dot_S512x1024_S512x1024_S512x512_1_1_0_0_n_n 1024 rfl rfl).symm k) = ix2 c k := funext fun a => Fin.ext (by
    match a with
    | ⟨0, _⟩ => exact rhs_dot1_0 _ _
    | ⟨1, _⟩ => exact (rhs_dot1_1 _ _).trans hk)
  rw [el, er]

/-- The body's score tile, entry by entry, is `sc` of the two input tiles. -/
theorem score_apply (x0 x1 : Vec Ideal S1x512x1024 .f32) (r c : Fin 512) :
    k0_pay15 (F := Ideal) x0 x1 (ix2 r c) = DualSoftmax.sc (tileV x0) (tileV x1) r c := by
  have e1 := dot1_apply (k0_pay13 (F := Ideal) x0) (k0_pay14 (F := Ideal) x1) r c
  have e2 := dot1_apply (k0_pay13 (F := Ideal) x0)
    (truncf .bf16 (subf (k0_pay12 (F := Ideal) x1) (k0_pay12 (F := Ideal) x1)) bitsLt_bf16_f32) r c
  have e3 := dot1_apply (truncf .bf16 (subf (k0_pay11 (F := Ideal) x0) (k0_pay11 (F := Ideal) x0)) bitsLt_bf16_f32)
    (k0_pay14 (F := Ideal) x1) r c
  unfold DualSoftmax.sc
  refine (congrArg₂ (· + ·) (congrArg₂ (· + ·) e1 e2) e3).trans ?_
  refine congrArg₂ (· + ·) (congrArg₂ (· + ·) (Finset.sum_congr rfl fun k _ => ?_) (Finset.sum_congr rfl fun k _ => ?_))
    (Finset.sum_congr rfl fun k _ => ?_)
  · exact congrArg₂ (· * ·) (pay13_apply x0 r k) (pay14_apply x1 c k)
  · exact congrArg₂ (· * ·) (pay13_apply x0 r k) (congrArg₂ (· - ·) (pay12_apply x1 c k) (pay12_apply x1 c k))
  · exact congrArg₂ (· * ·) (congrArg₂ (· - ·) (pay11_apply x0 r k) (pay11_apply x0 r k)) (pay14_apply x1 c k)

end Cert.KernelIdeal.StepValue

end
-- ==== Proof.LibColumn.lean ====
import Idealize.ShloMosaic.Lib.Pipeline.Value
import Idealize.ShloMosaic.Lib.ValueIdx

namespace Cert.Lib.Column

open Idealize.ShloMosaic Idealize.ShloMosaic.ValueIdx

variable {α : Type}

/-- A vector recast as a column keeps its entries. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the second axis reads the column's entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.StepRow.lean ====
import proofs.«413194_j57758720196677_3_alg».proof.Proof.StepDefs
import proofs.«413194_j57758720196677_3_alg».proof.Proof.LibColumn
import Idealize.ShloMosaic.Lib.ValueIdx
import Idealize.ShloMosaic.Lib.ValueLayout
import Idealize.ShloMosaic.Lib.Pipeline.Value
import Idealize.ShloMosaic.PureOps.Ideal.Laws
import Mathlib.Data.Finset.Lattice.Fold

set_option maxRecDepth 16384

noncomputable section

open scoped BigOperators

namespace Cert.KernelIdeal.StepValue

open Cert.KernelIdeal Cert.KernelIdeal.Gen Cert.KernelIdeal.Body
open Idealize.ShloMosaic Idealize.ShloMosaic.ValueIdx
open Cert.Lib.Column

theorem row_ofBits_negInf : Ideal.ofBits .f32 0xFF800000#32 = (⊥ : EReal) := by
  simp [Ideal.ofBits, Ideal.ieee]

theorem row_lift (h : S512x512.Reduces [1] S512) (r c : Fin 512) : h.lift (ix1 r) c = ix2 r c := by
  funext a
  apply Fin.ext
  match a with
  | ⟨0, _⟩ => rfl
  | ⟨1, _⟩ => rfl

theorem row_max_apply (src : FVec Ideal S512x512 .f32) (h : S512x512.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = Finset.univ.sup fun c : Fin 512 => src (ix2 r c) := by
  refine (Ideal.multiReduction_maximumf_single src _ h hφ hacc (ix1 r)).trans ?_
  show (Finset.univ : Finset (Fin 512)).fold max (Ideal.ofBits .f32 0xFF800000#32) (fun c => src (h.lift (ix1 r) c)) = _
  rw [row_ofBits_negInf]
  exact congrArg (fun f => Finset.fold max ⊥ f Finset.univ) (funext fun c => congrArg src (row_lift h r c))

theorem row_sum_apply (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ c : Fin 512, src (ix2 r c) := by
  refine (Ideal.multiReduction_add_single src _ h hφ hacc (ix1 r)).trans ?_
  exact Finset.sum_congr rfl fun c _ => congrArg src (row_lift h r c)

theorem row_pay16_apply (x0 x1 : Vec Ideal S1x512x1024 .f32) (m : Vec Ideal S512x1 .f32) (r : Fin 512) :
    k0_pay16 (F := Ideal) x0 x1 m (ix2 r (0 : Fin 1))
      = max (m (ix2 r (0 : Fin 1))) (DualSoftmax.rmax (tileV x0) (tileV x1) r) := by
  unfold k0_pay16 DualSoftmax.rmax
  refine congrArg (max (m (ix2 r (0 : Fin 1)))) ?_
  refine (shapeCast_a_a1_apply _ _ r (0 : Fin 1)).trans ?_
  refine (row_max_apply _ _ _ _ r).trans ?_
  exact congrArg (Finset.sup Finset.univ) (funext fun c => score_apply x0 x1 r c)

theorem row_pay17_apply (x0 x1 : Vec Ideal S1x512x1024 .f32) (m : Vec Ideal S512x1 .f32) (r : Fin 512) :
    k0_pay17 (F := Ideal) x0 x1 m (ix2 r (0 : Fin 1))
      = Ideal.exp (m (ix2 r (0 : Fin 1)) - max (m (ix2 r (0 : Fin 1))) (DualSoftmax.rmax (tileV x0) (tileV x1) r)) := by
  unfold k0_pay17
  exact congrArg (fun t => Ideal.exp (m (ix2 r (0 : Fin 1)) - t)) (row_pay16_apply x0 x1 m r)

theorem row_pay18_apply (x0 x1 : Vec Ideal S1x512x1024 .f32) (m : Vec Ideal S512x1 .f32) (r c : Fin 512) :
    k0_pay18 (F := Ideal) x0 x1 m (ix2 r c)
      = Ideal.exp (DualSoftmax.sc (tileV x0) (tileV x1) r c
          - max (m (ix2 r (0 : Fin 1))) (DualSoftmax.rmax (tileV x0) (tileV x1) r)) := by
  unfold k0_pay18
  refine congrArg Ideal.exp (congrArg₂ (· - ·) (score_apply x0 x1 r c) ?_)
  exact (broadcastTo_a1_ab_apply _ _ r c).trans (row_pay16_apply x0 x1 m r)

theorem row_pay20_apply (v33 : FVec Ideal S512x512 .f32) (v35 : FVec Ideal S512x1 .f32) (r : Fin 512) :
    k0_pay20 (F := Ideal) v33 v35 (ix2 r (0 : Fin 1)) = v35 (ix2 r (0 : Fin 1)) + ∑ c : Fin 512, v33 (ix2 r c) := by
  unfold k0_pay20
  refine (congrFun (shapeCast_self _ _) _).trans ?_
  refine congrArg (v35 (ix2 r (0 : Fin 1)) + ·) ?_
  exact (shapeCast_a_a1_apply _ _ r (0 : Fin 1)).trans (row_sum_apply _ _ _ _ r)

theorem row_pay22_apply (v : FVec Ideal S512x1 .f32) (r : Fin 512) :
    k0_pay22 (F := Ideal) v (ix2 r (0 : Fin 1)) = v (ix2 r (0 : Fin 1)) := by
  unfold k0_pay22
  exact congrFun (shapeCast_self _ _) _

theorem row_lhs_dot2_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem row_lhs_dot2_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem row_rhs_dot2_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem row_rhs_dot2_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem row_dot2_apply (lhs : FVec Ideal S512x512 .bf16) (rhs : FVec Ideal S512x1024 .bf16) (r : Fin 512) (d : Fin 1024) :
    matmul dot_S512x512_S512x1024_S512x1024_1_0_0_1_n_n none lhs rhs (constant (F := Ideal) S512x1024 .f32 0x00000000#32) (ix2 r d)
      = ∑ c : Fin 512, lhs (ix2 r c) * rhs (ix2 c d) := by
  refine (Ideal.matmul_constant_zero_apply dot_S512x512_S512x1024_S512x1024_1_0_0_1_n_n none lhs rhs (ix2 r d)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r d) ((contrEquiv1 dot_S512x512_S512x1024_S512x1024_1_0_0_1_n_n 512 rfl rfl).symm k) = ix2 r k := funext fun a => Fin.ext (by
    match a with
    | ⟨0, _⟩ => exact row_lhs_dot2_0 _ _
    | ⟨1, _⟩ => exact (row_lhs_dot2_1 _ _).trans hk)
  have er : dot_S512x512_S512x1024_S512x1024_1_0_0_1_n_n.rhsIdx (ix2 r d) ((contrEquiv1 dot_S512x512_S512x1024_S512x1024_1_0_0_1_n_n 512 rfl rfl).symm k) = ix2 k d := funext fun a => Fin.ext (by
    match a with
    | ⟨0, _⟩ => exact (row_rhs_dot2_0 _ _).trans hk
    | ⟨1, _⟩ => exact row_rhs_dot2_1 _ _)
  rw [el, er]

theorem row_pay21_apply (v16 : FVec Ideal S512x1024 .bf16) (v30 : FVec Ideal S512x1 .f32) (v33 : FVec Ideal S512x512 .f32)
    (v44 : Vec Ideal S1x512x1024 .f32) (r : Fin 512) (d : Fin 1024) :
    k0_pay21 (F := Ideal) v16 v30 v33 v44 (ix3 (0 : Fin 1) r d)
      = v30 (ix2 r (0 : Fin 1)) * v44 (ix3 (0 : Fin 1) r d) + ∑ c : Fin 512, v33 (ix2 r c) * v16 (ix2 c d) := by
  unfold k0_pay21
  refine (shapeCast_ab_1ab_apply _ _ (0 : Fin 1) r d).trans ?_
  refine congrArg₂ (· + ·) (congrArg₂ (· * ·) (broadcastTo_a1_ab_apply _ _ r d) (shapeCast_1ab_ab_apply _ _ r d)) ?_
  exact row_dot2_apply _ _ r d

theorem row_pay23_apply (v100 : Vec Ideal S1x512x1024 .f32) (v102 : Vec Ideal S512x1 .f32) (r : Fin 512) (d : Fin 1024) :
    k0_pay23 (F := Ideal) v100 v102 (ix3 (0 : Fin 1) r d)
      = Ideal.div (v100 (ix3 (0 : Fin 1) r d)) (v102 (ix2 r (0 : Fin 1))) := by
  unfold k0_pay23
  refine (shapeCast_ab_1ab_apply _ _ (0 : Fin 1) r d).trans ?_
  exact congrArg₂ Ideal.div (shapeCast_1ab_ab_apply _ _ r d) (broadcastTo_a1_ab_apply _ _ r d)

theorem row_pay9_apply (r : Fin 512) : (k0_pay9 (F := Ideal)) (ix2 r (0 : Fin 1)) = (⊥ : EReal) := by
  unfold k0_pay9
  refine (congrFun (shapeCast_self _ _) _).trans ?_
  exact row_ofBits_negInf
theorem row_pay10_apply (r : Fin 512) : (k0_pay10 (F := Ideal)) (ix2 r (0 : Fin 1)) = (0 : EReal) := by
  unfold k0_pay10
  refine (congrFun (shapeCast_self _ _) _).trans ?_
  exact Ideal.ofBits_zero_f32
theorem row_pay8_apply (r : Fin 512) (d : Fin 1024) : (k0_pay8 (F := Ideal)) (ix3 (0 : Fin 1) r d) = (0 : EReal) := by
  unfold k0_pay8
  refine (shapeCast_ab_1ab_apply _ _ (0 : Fin 1) r d).trans ?_
  exact Ideal.ofBits_zero_f32

theorem row_m7_apply (i : grid0.Coords) (y5 : Vec Ideal S1x512x1024 .f32) (y6 : Vec Ideal S1x2048x1024 .f32)
    (s7 s8 : Vec Ideal S512x1 .f32) (s9 s10 : Vec Ideal S1x2048 .f32) (r : Fin 512) :
    m7 i s7 (ix2 r (0 : Fin 1)) = DualSoftmax.ma0 (jjOf i) (stV y5 y6 s7 s8 s9 s10) r := by
  unfold m7 DualSoftmax.ma0
  by_cases h : c2 i
  · rw [if_pos h, if_pos ((c2_iff i).mp h)]
    exact row_pay9_apply r
  · rw [if_neg h, if_neg (fun e => h ((c2_iff i).mpr e))]
    rfl
theorem row_l8_apply (i : grid0.Coords) (y5 : Vec Ideal S1x512x1024 .f32) (y6 : Vec Ideal S1x2048x1024 .f32)
    (s7 s8 : Vec Ideal S512x1 .f32) (s9 s10 : Vec Ideal S1x2048 .f32) (r : Fin 512) :
    l8 i s8 (ix2 r (0 : Fin 1)) = DualSoftmax.la0 (jjOf i) (stV y5 y6 s7 s8 s9 s10) r := by
  unfold l8 DualSoftmax.la0
  by_cases h : c2 i
  · rw [if_pos h, if_pos ((c2_iff i).mp h)]
    exact row_pay10_apply r
  · rw [if_neg h, if_neg (fun e => h ((c2_iff i).mpr e))]
    rfl
theorem row_a5_apply (i : grid0.Coords) (y5 : Vec Ideal S1x512x1024 .f32) (y6 : Vec Ideal S1x2048x1024 .f32)
    (s7 s8 : Vec Ideal S512x1 .f32) (s9 s10 : Vec Ideal S1x2048 .f32) (r : Fin 512) (d : Fin 1024) :
    a5 i y5 (ix3 (0 : Fin 1) r d) = DualSoftmax.ao0 (jjOf i) (stV y5 y6 s7 s8 s9 s10) r d := by
  unfold a5 DualSoftmax.ao0
  by_cases h : c2 i
  · rw [if_pos h, if_pos ((c2_iff i).mp h)]
    exact row_pay8_apply r d
  · rw [if_neg h, if_neg (fun e => h ((c2_iff i).mpr e))]
    rfl

open DualSoftmax in
theorem nx7_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (r : Fin 512) :
    nx7 i x0 x1 s7 (ix2 r (0 : Fin 1)) = maN (jjOf i) (tileV x0) (tileV x1) (stV y5 y6 s7 s8 s9 s10) r := by
  unfold nx7 DualSoftmax.maN
  refine (row_pay22_apply _ r).trans ?_
  refine (row_pay16_apply x0 x1 (m7 i s7) r).trans ?_
  rw [row_m7_apply i y5 y6 s7 s8 s9 s10 r]

open DualSoftmax in
theorem nx8_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (r : Fin 512) :
    nx8 i x0 x1 s7 s8 (ix2 r (0 : Fin 1)) = laN (jjOf i) (tileV x0) (tileV x1) (stV y5 y6 s7 s8 s9 s10) r := by
  unfold nx8 DualSoftmax.laN DualSoftmax.alpha DualSoftmax.pr DualSoftmax.maN
  have hm := row_m7_apply i y5 y6 s7 s8 s9 s10 r
  have hl := row_l8_apply i y5 y6 s7 s8 s9 s10 r
  refine (row_pay20_apply _ _ r).trans ?_
  refine congrArg₂ (· + ·) ?_ (Finset.sum_congr rfl fun c _ => ?_)
  · refine (congrArg₂ (· * ·) (row_pay17_apply x0 x1 (m7 i s7) r) hl).trans ?_
    rw [hm]
  · refine (row_pay18_apply x0 x1 (m7 i s7) r c).trans ?_
    rw [hm]

theorem row_mid5_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (r : Fin 512) (d : Fin 1024) :
    mid5 i x0 x1 y5 s7 (ix3 (0 : Fin 1) r d)
      = DualSoftmax.aoM (jjOf i) (tileV x0) (tileV x1) (stV y5 y6 s7 s8 s9 s10) r d := by
  unfold mid5 DualSoftmax.aoM DualSoftmax.alpha DualSoftmax.pr DualSoftmax.maN
  have hm := row_m7_apply i y5 y6 s7 s8 s9 s10 r
  have ha := row_a5_apply i y5 y6 s7 s8 s9 s10 r d
  refine (row_pay21_apply _ _ _ _ r d).trans ?_
  refine congrArg₂ (· + ·) ?_ (Finset.sum_congr rfl fun c _ => ?_)
  · refine (congrArg₂ (· * ·) (row_pay17_apply x0 x1 (m7 i s7) r) ha).trans ?_
    rw [hm]
  · refine (congrArg₂ (· * ·) (row_pay18_apply x0 x1 (m7 i s7) r c) (pay14_apply x1 c d)).trans ?_
    rw [hm]
    rfl

open DualSoftmax in
/-- The row accumulator the body leaves is the specification's step, entry by entry. -/
theorem nx5_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (r : Fin 512) (d : Fin 1024) :
    nx5 i x0 x1 y5 s7 s8 (ix3 (0 : Fin 1) r d) = aoN (jjOf i) (tileV x0) (tileV x1) (stV y5 y6 s7 s8 s9 s10) r d := by
  unfold nx5 DualSoftmax.aoN
  by_cases h : c3 i
  · rw [if_pos h, if_pos ((c3_iff i).mp h)]
    refine (row_pay23_apply _ _ r d).trans ?_
    exact congrArg₂ Ideal.div (row_mid5_apply i x0 x1 y5 y6 s7 s8 s9 s10 r d) (nx8_apply i x0 x1 y5 y6 s7 s8 s9 s10 r)
  · rw [if_neg h, if_neg (fun e => h ((c3_iff i).mpr e))]
    exact row_mid5_apply i x0 x1 y5 y6 s7 s8 s9 s10 r d

end Cert.KernelIdeal.StepValue

end
-- ==== Proof.StepCol.lean ====
import proofs.«413194_j57758720196677_3_alg».proof.Proof.StepDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.StepValue

open Cert.KernelIdeal Cert.KernelIdeal.Gen Cert.KernelIdeal.Body
open Idealize.ShloMosaic Idealize.ShloMosaic.ValueIdx

private theorem col_bot_word : Ideal.ofBits .f32 0xFF800000#32 = (⊥ : EReal) := by simp [Ideal.ofBits, Ideal.ieee]

private theorem col_fold_max_bot {n : ℕ} (f : Fin n → EReal) :
    (Finset.univ : Finset (Fin n)).fold max ⊥ f = Finset.univ.sup f := rfl

open DualSoftmax in

private theorem col_colUnit_idx (jj : Fin 4) (off : Fin 2 → ℕ) (hoff : off = ![0, 512 * jj.val])
    (inb : ∀ a, off a + S1x512.size a ≤ S1x2048.size a) (g : Fin 2048) (hg : inTile jj g) :
    (Rect.unit (s := S1x2048) off S1x512.size inb).idx (ix2 (0 : Fin 1) (loc g)) = ix2 (0 : Fin 1) g := by
  subst hoff
  funext a; apply Fin.ext
  unfold inTile at hg
  have hj := jj.isLt
  match a with
  | ⟨0, _⟩ => rfl
  | ⟨1, _⟩ =>
    show 512 * jj.val + 1 * (g.val % 512) = g.val
    omega

open DualSoftmax in

private theorem col_colUnit_mem (jj : Fin 4) (off : Fin 2 → ℕ) (hoff : off = ![0, 512 * jj.val])
    (inb : ∀ a, off a + S1x512.size a ≤ S1x2048.size a) (g : Fin 2048) :
    ix2 (0 : Fin 1) g ∈ (Rect.unit (s := S1x2048) off S1x512.size inb).set ↔ inTile jj g := by
  subst hoff
  rw [Rect.mem_set_unit]
  unfold inTile
  have hj := jj.isLt
  constructor
  · intro h
    have h1 := h 1
    change 512 * jj.val ≤ g.val ∧ g.val < 512 * jj.val + 512 at h1
    omega
  · intro h a
    match a with
    | ⟨0, _⟩ =>
      change 0 ≤ 0 ∧ 0 < 0 + 1
      omega
    | ⟨1, _⟩ =>
      change 512 * jj.val ≤ g.val ∧ g.val < 512 * jj.val + 512
      omega

open DualSoftmax in

private theorem col_rowUnit_idx (jj : Fin 4) (off : Fin 3 → ℕ) (hoff : off = ![0, 512 * jj.val, 0])
    (inb : ∀ a, off a + S1x512x1024.size a ≤ S1x2048x1024.size a) (g : Fin 2048) (d : Fin 1024) (hg : inTile jj g) :
    (Rect.unit (s := S1x2048x1024) off S1x512x1024.size inb).idx (ix3 (0 : Fin 1) (loc g) d) = ix3 (0 : Fin 1) g d := by
  subst hoff
  funext a; apply Fin.ext
  unfold inTile at hg
  have hj := jj.isLt
  match a with
  | ⟨0, _⟩ => rfl
  | ⟨1, _⟩ =>
    show 512 * jj.val + 1 * (g.val % 512) = g.val
    omega
  | ⟨2, _⟩ =>
    show 0 + 1 * d.val = d.val
    omega

open DualSoftmax in
private theorem col_rowUnit_mem (jj : Fin 4) (off : Fin 3 → ℕ) (hoff : off = ![0, 512 * jj.val, 0])
    (inb : ∀ a, off a + S1x512x1024.size a ≤ S1x2048x1024.size a) (g : Fin 2048) (d : Fin 1024) :
    ix3 (0 : Fin 1) g d ∈ (Rect.unit (s := S1x2048x1024) off S1x512x1024.size inb).set ↔ inTile jj g := by
  subst hoff
  rw [Rect.mem_set_unit]
  unfold inTile
  have hj := jj.isLt
  have hd := d.isLt
  constructor
  · intro h
    have h1 := h 1
    change 512 * jj.val ≤ g.val ∧ g.val < 512 * jj.val + 512 at h1
    omega
  · intro h a
    match a with
    | ⟨0, _⟩ =>
      change 0 ≤ 0 ∧ 0 < 0 + 1
      omega
    | ⟨1, _⟩ =>
      change 512 * jj.val ≤ g.val ∧ g.val < 512 * jj.val + 512
      omega
    | ⟨2, _⟩ =>
      change 0 ≤ d.val ∧ d.val < 0 + 1024
      omega

private theorem col_pay6_apply (g : Fin 2048) : k0_pay6 (F := Ideal) (ix2 (0 : Fin 1) g) = (⊥ : EReal) := by
  unfold k0_pay6
  simp only [shapeCast_self, broadcast_apply]
  exact col_bot_word

private theorem col_pay7_apply (g : Fin 2048) : k0_pay7 (F := Ideal) (ix2 (0 : Fin 1) g) = (0 : EReal) := by
  unfold k0_pay7
  simp only [shapeCast_self, broadcast_apply]
  exact Ideal.ofBits_zero_f32

private theorem col_pay5_apply (g : Fin 2048) (d : Fin 1024) : k0_pay5 (F := Ideal) (ix3 (0 : Fin 1) g d) = (0 : EReal) := by
  unfold k0_pay5
  simp only [shapeCast_ab_1ab_apply, broadcast_apply]
  exact Ideal.ofBits_zero_f32

open DualSoftmax in
private theorem col_m9_apply (i : grid0.Coords) (y5 : Vec Ideal S1x512x1024 .f32) (y6 : Vec Ideal S1x2048x1024 .f32)
    (s7 s8 : Vec Ideal S512x1 .f32) (s9 s10 : Vec Ideal S1x2048 .f32) (g : Fin 2048) :
    m9 (F := Ideal) i s9 (ix2 (0 : Fin 1) g) = mb0 (iiOf i) (jjOf i) (stV y5 y6 s7 s8 s9 s10) g := by
  unfold m9 mb0
  by_cases h : c1 i
  · rw [if_pos h, if_pos ((c1_iff i).1 h)]; exact col_pay6_apply g
  · rw [if_neg h, if_neg (fun h' => h ((c1_iff i).2 h'))]; rfl

open DualSoftmax in
private theorem col_l10_apply (i : grid0.Coords) (y5 : Vec Ideal S1x512x1024 .f32) (y6 : Vec Ideal S1x2048x1024 .f32)
    (s7 s8 : Vec Ideal S512x1 .f32) (s9 s10 : Vec Ideal S1x2048 .f32) (g : Fin 2048) :
    l10 (F := Ideal) i s10 (ix2 (0 : Fin 1) g) = lb0 (iiOf i) (jjOf i) (stV y5 y6 s7 s8 s9 s10) g := by
  unfold l10 lb0
  by_cases h : c1 i
  · rw [if_pos h, if_pos ((c1_iff i).1 h)]; exact col_pay7_apply g
  · rw [if_neg h, if_neg (fun h' => h ((c1_iff i).2 h'))]; rfl

open DualSoftmax in
private theorem col_b6_apply (i : grid0.Coords) (y5 : Vec Ideal S1x512x1024 .f32) (y6 : Vec Ideal S1x2048x1024 .f32)
    (s7 s8 : Vec Ideal S512x1 .f32) (s9 s10 : Vec Ideal S1x2048 .f32) (g : Fin 2048) (d : Fin 1024) :
    b6 (F := Ideal) i y6 (ix3 (0 : Fin 1) g d) = bo0 (iiOf i) (jjOf i) (stV y5 y6 s7 s8 s9 s10) g d := by
  unfold b6 bo0
  by_cases h : c1 i
  · rw [if_pos h, if_pos ((c1_iff i).1 h)]; exact col_pay5_apply g d
  · rw [if_neg h, if_neg (fun h' => h ((c1_iff i).2 h'))]; rfl

private theorem col_lift_rows (h : S512x512.Reduces [0] S512) (c : Fin 512) (k : Fin (S512x512.size 0)) :
    h.lift (ix1 c) k = ix2 (⟨k.val, k.isLt⟩ : Fin 512) c := by
  funext a; apply Fin.ext
  match a with | ⟨0, _⟩ => rfl | ⟨1, _⟩ => rfl

private theorem col_colmax_apply (v : FVec Ideal S512x512 .f32) (c : Fin 512) :
    multiReduction (F := Ideal) .maximumf [0] S512 v 0xFF800000#32 reduces_S512x512_S512_2 (.inl rfl) rfl (ix1 c)
      = Finset.univ.sup fun r : Fin 512 => v (ix2 r c) := by
  refine (Ideal.multiReduction_maximumf_single v _ reduces_S512x512_S512_2 _ _ (ix1 c)).trans ?_
  have hf : (v ∘ reduces_S512x512_S512_2.lift (ix1 c)) = fun r : Fin 512 => v (ix2 r c) :=
    funext fun k => congrArg v (col_lift_rows _ c k)
  rw [hf]
  show Finset.univ.fold max (Ideal.ofBits .f32 0xFF800000#32) _ = _
  rw [col_bot_word]
  exact col_fold_max_bot _

private theorem col_colsum_apply (v : FVec Ideal S512x512 .f32) (c : Fin 512) :
    multiReduction (F := Ideal) .add [0] S512 v 0x00000000#32 reduces_S512x512_S512_2 (.inl rfl) rfl (ix1 c)
      = ∑ r : Fin 512, v (ix2 r c) := by
  refine (Ideal.multiReduction_add_single v _ reduces_S512x512_S512_2 _ _ (ix1 c)).trans ?_
  exact Finset.sum_congr rfl fun k _ => congrArg v (col_lift_rows _ c k)

private theorem col_bcast_col_apply (v : FVec Ideal S512x1 .f32) (c : Fin 512) (d : Fin 1024) :
    broadcastTo S512x1024 v broadcasts_S512x1_S512x1024 (ix2 c d) = v (ix2 c (0 : Fin 1)) := by
  refine broadcastTo_apply v _ (ix2 c d) (ix2 c (0 : Fin 1)) fun ax => ?_
  match ax with
  | ⟨0, _⟩ =>
    show c.val = if (512 : ℕ) = 1 then 0 else c.val
    rw [if_neg (by decide)]
  | ⟨1, _⟩ =>
    show (0 : ℕ) = if (1 : ℕ) = 1 then 0 else d.val
    rw [if_pos rfl]

private theorem col_lhs_colprod_0 (j : S512x1024.Idx) (q : dot_S512x512_S512x1024_S512x1024_0_0_1_1_n_n.contr.Idx) :
    (dot_S512x512_S512x1024_S512x1024_0_0_1_1_n_n.lhsIdx j q 0).val = (q ⟨0, by decide⟩).val :=
  dot_S512x512_S512x1024_S512x1024_0_0_1_1_n_n.lhsIdx_val_of_single rfl j q
private theorem col_lhs_colprod_1 (j : S512x1024.Idx) (q : dot_S512x512_S512x1024_S512x1024_0_0_1_1_n_n.contr.Idx) :
    (dot_S512x512_S512x1024_S512x1024_0_0_1_1_n_n.lhsIdx j q 1).val = (j 0).val := by
  unfold DotDims.lhsIdx
  rw [dif_neg (show ¬(1 : Fin S512x512.rank) ∈ dot_S512x512_S512x1024_S512x1024_0_0_1_1_n_n.lhsBatch by decide), dif_pos (show (1 : Fin S512x512.rank) ∈ dot_S512x512_S512x1024_S512x1024_0_0_1_1_n_n.lhsNonContracting by decide)]
  rfl
private theorem col_rhs_colprod_0 (j : S512x1024.Idx) (q : dot_S512x512_S512x1024_S512x1024_0_0_1_1_n_n.contr.Idx) :
    (dot_S512x512_S512x1024_S512x1024_0_0_1_1_n_n.rhsIdx j q 0).val = (q ⟨0, by decide⟩).val :=
  dot_S512x512_S512x1024_S512x1024_0_0_1_1_n_n.rhsIdx_val_of_single rfl j q
private theorem col_rhs_colprod_1 (j : S512x1024.Idx) (q : dot_S512x512_S512x1024_S512x1024_0_0_1_1_n_n.contr.Idx) :
    (dot_S512x512_S512x1024_S512x1024_0_0_1_1_n_n.rhsIdx j q 1).val = (j 1).val := by
  unfold DotDims.rhsIdx
  rw [dif_neg (show ¬(1 : Fin S512x1024.rank) ∈ dot_S512x512_S512x1024_S512x1024_0_0_1_1_n_n.rhsBatch by decide), dif_pos (show (1 : Fin S512x1024.rank) ∈ dot_S512x512_S512x1024_S512x1024_0_0_1_1_n_n.rhsNonContracting by decide)]
  rfl

private theorem col_colprod_apply (l : FVec Ideal S512x512 .bf16) (r : FVec Ideal S512x1024 .bf16) (c : Fin 512) (d : Fin 1024) :
    matmul (F := Ideal) dot_S512x512_S512x1024_S512x1024_0_0_1_1_n_n none l r (constant S512x1024 .f32 0x00000000#32) (ix2 c d)
      = ∑ k : Fin 512, l (ix2 k c) * r (ix2 k d) := by
  simp only [matmul]
  rw [Ideal.matmul_constant_zero_apply, ← Equiv.sum_comp (ValueIdx.contrEquiv1 dot_S512x512_S512x1024_S512x1024_0_0_1_1_n_n 512 rfl rfl).symm]
  refine Finset.sum_congr rfl fun k _ => ?_
  have hk := ValueIdx.contrEquiv1_symm_val dot_S512x512_S512x1024_S512x1024_0_0_1_1_n_n 512 rfl rfl k
  have el : dot_S512x512_S512x1024_S512x1024_0_0_1_1_n_n.lhsIdx (ix2 c d) ((ValueIdx.contrEquiv1 dot_S512x512_S512x1024_S512x1024_0_0_1_1_n_n 512 rfl rfl).symm k) = ix2 k c := funext fun a => Fin.ext (by
    match a with
    | ⟨0, _⟩ => exact (col_lhs_colprod_0 _ _).trans hk
    | ⟨1, _⟩ => exact col_lhs_colprod_1 _ _)
  have er : dot_S512x512_S512x1024_S512x1024_0_0_1_1_n_n.rhsIdx (ix2 c d) ((ValueIdx.contrEquiv1 dot_S512x512_S512x1024_S512x1024_0_0_1_1_n_n 512 rfl rfl).symm k) = ix2 k d := funext fun a => Fin.ext (by
    match a with
    | ⟨0, _⟩ => exact (col_rhs_colprod_0 _ _).trans hk
    | ⟨1, _⟩ => exact col_rhs_colprod_1 _ _)
  rw [el, er]

private theorem col_pay1_eq (v66 : FVec Ideal S1x512 .f32) : k0_pay1 (F := Ideal) v66 = v66 := by
  unfold k0_pay1
  exact shapeCast_self _ _

private theorem col_pay24_apply (v24 : FVec Ideal S512x512 .f32) (v61 : Vec Ideal S1x512 .f32) (c : Fin 512) :
    k0_pay24 (F := Ideal) v24 v61 (ix2 (0 : Fin 1) c)
      = max (v61 (ix2 (0 : Fin 1) c)) (Finset.univ.sup fun r : Fin 512 => v24 (ix2 r c)) := by
  unfold k0_pay24
  show max (v61 (ix2 (0 : Fin 1) c)) (shapeCast S1x512 (multiReduction (F := Ideal) .maximumf [0] S512 v24 0xFF800000#32 reduces_S512x512_S512_2 (.inl rfl) rfl) shapeCasts_S512_S1x512 (ix2 (0 : Fin 1) c)) = _
  rw [shapeCast_a_1a_apply, col_colmax_apply]

private theorem col_pay25_apply (v24 : FVec Ideal S512x512 .f32) (v61 : Vec Ideal S1x512 .f32) (c : Fin 512) :
    k0_pay25 (F := Ideal) v24 v61 (ix2 (0 : Fin 1) c)
      = Ideal.exp (v61 (ix2 (0 : Fin 1) c) - k0_pay24 (F := Ideal) v24 v61 (ix2 (0 : Fin 1) c)) := rfl

private theorem col_pay26_apply (v24 : FVec Ideal S512x512 .f32) (v61 : Vec Ideal S1x512 .f32) (r c : Fin 512) :
    k0_pay26 (F := Ideal) v24 v61 (ix2 r c)
      = Ideal.exp (v24 (ix2 r c) - k0_pay24 (F := Ideal) v24 v61 (ix2 (0 : Fin 1) c)) := by
  unfold k0_pay26
  show Ideal.exp (v24 (ix2 r c) - broadcastTo S512x512 (k0_pay24 (F := Ideal) v24 v61) broadcasts_S1x512_S512x512 (ix2 r c)) = _
  rw [broadcastTo_1b_ab_apply]

private theorem col_pay27_apply (v24 : FVec Ideal S512x512 .f32) (v61 v63 : Vec Ideal S1x512 .f32) (c : Fin 512) :
    k0_pay27 (F := Ideal) v24 v61 v63 (ix2 (0 : Fin 1) c)
      = k0_pay25 (F := Ideal) v24 v61 (ix2 (0 : Fin 1) c) * v63 (ix2 (0 : Fin 1) c) := rfl

private theorem col_pay2_apply (v71 : FVec Ideal S512x512 .f32) (v72 : FVec Ideal S1x512 .f32) (c : Fin 512) :
    k0_pay2 (F := Ideal) v71 v72 (ix2 (0 : Fin 1) c) = v72 (ix2 (0 : Fin 1) c) + ∑ r : Fin 512, v71 (ix2 r c) := by
  unfold k0_pay2
  simp only [shapeCast_self]
  show v72 (ix2 (0 : Fin 1) c) + shapeCast S1x512 (multiReduction (F := Ideal) .add [0] S512 v71 0x00000000#32 reduces_S512x512_S512_2 (.inl rfl) rfl) shapeCasts_S512_S1x512 (ix2 (0 : Fin 1) c) = _
  rw [shapeCast_a_1a_apply, col_colsum_apply]

private theorem col_pay13_apply (x0 : Vec Ideal S1x512x1024 .f32) (r : Fin 512) (d : Fin 1024) :
    k0_pay13 (F := Ideal) x0 (ix2 r d) = tileV x0 r d := by
  unfold k0_pay13 k0_pay11
  show shapeCast S512x1024 x0 shapeCasts_S1x512x1024_S512x1024 (ix2 r d) = _
  rw [shapeCast_1ab_ab_apply]
  rfl

private theorem col_pay3_apply (v12 : FVec Ideal S512x1024 .bf16) (v68 : FVec Ideal S1x512 .f32) (v71 : FVec Ideal S512x512 .f32)
    (v88 : Vec Ideal S1x512x1024 .f32) (c : Fin 512) (d : Fin 1024) :
    k0_pay3 (F := Ideal) v12 v68 v71 v88 (ix3 (0 : Fin 1) c d)
      = v68 (ix2 (0 : Fin 1) c) * v88 (ix3 (0 : Fin 1) c d) + ∑ r : Fin 512, v71 (ix2 r c) * v12 (ix2 r d) := by
  unfold k0_pay3
  refine (shapeCast_ab_1ab_apply _ shapeCasts_S512x1024_S1x512x1024 (0 : Fin 1) c d).trans ?_
  show broadcastTo S512x1024 (transpose S512x1 [1, 0] v68 transposes_S1x512_p1_0_S512x1) broadcasts_S512x1_S512x1024 (ix2 c d)
        * shapeCast S512x1024 v88 shapeCasts_S1x512x1024_S512x1024 (ix2 c d)
      + matmul (F := Ideal) dot_S512x512_S512x1024_S512x1024_0_0_1_1_n_n none (truncf .bf16 v71 bitsLt_bf16_f32) v12 (constant S512x1024 .f32 0x00000000#32) (ix2 c d) = _
  rw [col_bcast_col_apply, transpose_ix2_apply, shapeCast_1ab_ab_apply, col_colprod_apply]
  rfl

private theorem col_pay4_apply (v101 : Vec Ideal S1x512 .f32) (v104 : Vec Ideal S1x512x1024 .f32) (c : Fin 512) (d : Fin 1024) :
    k0_pay4 (F := Ideal) v101 v104 (ix3 (0 : Fin 1) c d) = Ideal.div (v104 (ix3 (0 : Fin 1) c d)) (v101 (ix2 (0 : Fin 1) c)) := by
  unfold k0_pay4
  refine (shapeCast_ab_1ab_apply _ shapeCasts_S512x1024_S1x512x1024 (0 : Fin 1) c d).trans ?_
  show Ideal.div (shapeCast S512x1024 v104 shapeCasts_S1x512x1024_S512x1024 (ix2 c d))
      (broadcastTo S512x1024 (transpose S512x1 [1, 0] v101 transposes_S1x512_p1_0_S512x1) broadcasts_S512x1_S512x1024 (ix2 c d)) = _
  rw [col_bcast_col_apply, transpose_ix2_apply, shapeCast_1ab_ab_apply]

open DualSoftmax in
private theorem col_old9_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (hg : inTile (jjOf i) g) :
    old9 (F := Ideal) i s9 (ix2 (0 : Fin 1) (loc g)) = mb0 (iiOf i) (jjOf i) (stV y5 y6 s7 s8 s9 s10) g := by
  unfold old9
  show m9 (F := Ideal) i s9 ((colRect i).idx (ix2 (0 : Fin 1) (loc g))) = _
  rw [col_colUnit_idx (jjOf i) _ (k0_off1_eq i) _ g hg]
  exact col_m9_apply i y5 y6 s7 s8 s9 s10 g

open DualSoftmax in
private theorem col_old10_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (hg : inTile (jjOf i) g) :
    old10 (F := Ideal) i s10 (ix2 (0 : Fin 1) (loc g)) = lb0 (iiOf i) (jjOf i) (stV y5 y6 s7 s8 s9 s10) g := by
  unfold old10
  show l10 (F := Ideal) i s10 ((colRect i).idx (ix2 (0 : Fin 1) (loc g))) = _
  rw [col_colUnit_idx (jjOf i) _ (k0_off1_eq i) _ g hg]
  exact col_l10_apply i y5 y6 s7 s8 s9 s10 g

open DualSoftmax in
private theorem col_old6_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (d : Fin 1024) (hg : inTile (jjOf i) g) :
    old6 (F := Ideal) i y6 (ix3 (0 : Fin 1) (loc g) d) = bo0 (iiOf i) (jjOf i) (stV y5 y6 s7 s8 s9 s10) g d := by
  unfold old6
  show b6 (F := Ideal) i y6 ((rowRect i).idx (ix3 (0 : Fin 1) (loc g) d)) = _
  rw [col_rowUnit_idx (jjOf i) _ (k0_off2_eq i) _ g d hg]
  exact col_b6_apply i y5 y6 s7 s8 s9 s10 g d

open DualSoftmax in

private theorem col_mbT_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (hg : inTile (jjOf i) g) :
    k0_pay24 (F := Ideal) (k0_pay15 x0 x1) (old9 i s9) (ix2 (0 : Fin 1) (loc g))
      = mbT (iiOf i) (jjOf i) (tileV x0) (tileV x1) (stV y5 y6 s7 s8 s9 s10) g := by
  rw [col_pay24_apply, col_old9_apply i x0 x1 y5 y6 s7 s8 s9 s10 g hg]
  unfold mbT cmax
  simp only [score_apply]

open DualSoftmax in
theorem nx9_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) :
    nx9 i x0 x1 s9 (ix2 (0 : Fin 1) g) = mbN (iiOf i) (jjOf i) (tileV x0) (tileV x1) (stV y5 y6 s7 s8 s9 s10) g := by
  unfold nx9 mbN
  by_cases hg : inTile (jjOf i) g
  · have e : (colRect i).emb (ix2 (0 : Fin 1) (loc g)) = ix2 (0 : Fin 1) g :=
      col_colUnit_idx (jjOf i) _ (k0_off1_eq i) _ g hg
    rw [if_pos hg, ← e, Rect.overlay_emb, col_pay1_eq]
    exact col_mbT_apply i x0 x1 y5 y6 s7 s8 s9 s10 g hg
  · rw [if_neg hg, Rect.overlay_of_not_mem _ _ _ (fun hm => hg ((col_colUnit_mem (jjOf i) _ (k0_off1_eq i) _ g).1 hm))]
    exact col_m9_apply i y5 y6 s7 s8 s9 s10 g

open DualSoftmax in
private theorem col_new10_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (hg : inTile (jjOf i) g) :
    new10 (F := Ideal) i x0 x1 s9 s10 (ix2 (0 : Fin 1) (loc g))
      = beta (iiOf i) (jjOf i) (tileV x0) (tileV x1) (stV y5 y6 s7 s8 s9 s10) g * lb0 (iiOf i) (jjOf i) (stV y5 y6 s7 s8 s9 s10) g
        + ∑ r : Fin 512, qc (iiOf i) (jjOf i) (tileV x0) (tileV x1) (stV y5 y6 s7 s8 s9 s10) r g := by
  unfold new10
  rw [col_pay2_apply, col_pay27_apply, col_pay25_apply, col_mbT_apply i x0 x1 y5 y6 s7 s8 s9 s10 g hg,
    col_old9_apply i x0 x1 y5 y6 s7 s8 s9 s10 g hg, col_old10_apply i x0 x1 y5 y6 s7 s8 s9 s10 g hg]
  simp only [col_pay26_apply, col_mbT_apply i x0 x1 y5 y6 s7 s8 s9 s10 g hg, score_apply]
  rfl

open DualSoftmax in
theorem nx10_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) :
    nx10 i x0 x1 s9 s10 (ix2 (0 : Fin 1) g) = lbN (iiOf i) (jjOf i) (tileV x0) (tileV x1) (stV y5 y6 s7 s8 s9 s10) g := by
  unfold nx10 lbN
  by_cases hg : inTile (jjOf i) g
  · have e : (colRect i).emb (ix2 (0 : Fin 1) (loc g)) = ix2 (0 : Fin 1) g :=
      col_colUnit_idx (jjOf i) _ (k0_off1_eq i) _ g hg
    rw [if_pos hg, ← e, Rect.overlay_emb]
    exact col_new10_apply i x0 x1 y5 y6 s7 s8 s9 s10 g hg
  · rw [if_neg hg, Rect.overlay_of_not_mem _ _ _ (fun hm => hg ((col_colUnit_mem (jjOf i) _ (k0_off1_eq i) _ g).1 hm))]
    exact col_l10_apply i y5 y6 s7 s8 s9 s10 g

open DualSoftmax in
private theorem col_new6_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (d : Fin 1024) (hg : inTile (jjOf i) g) :
    new6 (F := Ideal) i x0 x1 y6 s9 (ix3 (0 : Fin 1) (loc g) d)
      = beta (iiOf i) (jjOf i) (tileV x0) (tileV x1) (stV y5 y6 s7 s8 s9 s10) g * bo0 (iiOf i) (jjOf i) (stV y5 y6 s7 s8 s9 s10) g d
        + ∑ r : Fin 512, qc (iiOf i) (jjOf i) (tileV x0) (tileV x1) (stV y5 y6 s7 s8 s9 s10) r g * tileV x0 r d := by
  unfold new6
  rw [col_pay3_apply, col_pay25_apply, col_mbT_apply i x0 x1 y5 y6 s7 s8 s9 s10 g hg,
    col_old9_apply i x0 x1 y5 y6 s7 s8 s9 s10 g hg, col_old6_apply i x0 x1 y5 y6 s7 s8 s9 s10 g d hg]
  simp only [col_pay26_apply, col_pay13_apply, col_mbT_apply i x0 x1 y5 y6 s7 s8 s9 s10 g hg, score_apply]
  rfl

open DualSoftmax in

private theorem col_mid6_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (d : Fin 1024) :
    mid6 (F := Ideal) i x0 x1 y6 s9 (ix3 (0 : Fin 1) g d) = boM (iiOf i) (jjOf i) (tileV x0) (tileV x1) (stV y5 y6 s7 s8 s9 s10) g d := by
  unfold mid6 boM
  by_cases hg : inTile (jjOf i) g
  · have e : (rowRect i).emb (ix3 (0 : Fin 1) (loc g) d) = ix3 (0 : Fin 1) g d :=
      col_rowUnit_idx (jjOf i) _ (k0_off2_eq i) _ g d hg
    rw [if_pos hg, ← e, Rect.overlay_emb]
    exact col_new6_apply i x0 x1 y5 y6 s7 s8 s9 s10 g d hg
  · rw [if_neg hg, Rect.overlay_of_not_mem _ _ _ (fun hm => hg ((col_rowUnit_mem (jjOf i) _ (k0_off2_eq i) _ g d).1 hm))]
    exact col_b6_apply i y5 y6 s7 s8 s9 s10 g d

open DualSoftmax in
/-- The column accumulator the body leaves is the specification's step, entry by entry. -/
theorem nx6_apply (i : grid0.Coords) (x0 x1 : Vec Ideal S1x512x1024 .f32) (y5 : Vec Ideal S1x512x1024 .f32) (y6 : Vec Ideal S1x2048x1024 .f32)
    (s7 s8 : Vec Ideal S512x1 .f32) (s9 s10 : Vec Ideal S1x2048 .f32) (g : Fin 2048) (d : Fin 1024) :
    nx6 i x0 x1 y6 s9 s10 (ix3 (0 : Fin 1) g d) = boN (iiOf i) (jjOf i) (tileV x0) (tileV x1) (stV y5 y6 s7 s8 s9 s10) g d := by
  unfold nx6 boN
  by_cases h4 : c4 i
  · rw [if_pos h4]
    by_cases hg : inTile (jjOf i) g
    · have e : (rowRect i).emb (ix3 (0 : Fin 1) (loc g) d) = ix3 (0 : Fin 1) g d :=
        col_rowUnit_idx (jjOf i) _ (k0_off2_eq i) _ g d hg
      rw [if_pos ⟨hg, (c4_iff i).1 h4⟩, ← e, Rect.overlay_emb, col_pay4_apply,
        col_new6_apply i x0 x1 y5 y6 s7 s8 s9 s10 g d hg, col_new10_apply i x0 x1 y5 y6 s7 s8 s9 s10 g hg]
      unfold boM lbN
      rw [if_pos hg, if_pos hg]
    · rw [if_neg (fun h => hg h.1),
        Rect.overlay_of_not_mem _ _ _ (fun hm => hg ((col_rowUnit_mem (jjOf i) _ (k0_off2_eq i) _ g d).1 hm))]
      exact col_mid6_apply i x0 x1 y5 y6 s7 s8 s9 s10 g d
  · rw [if_neg h4, if_neg (fun h => h4 ((c4_iff i).2 h.2))]
    exact col_mid6_apply i x0 x1 y5 y6 s7 s8 s9 s10 g d

end Cert.KernelIdeal.StepValue

end
-- ==== Proof.Math.lean ====
import proofs.«413194_j57758720196677_3_alg».proof.Proof.Spec
import Mathlib.Data.EReal.Operations
import Mathlib.Analysis.Complex.Exponential
import Mathlib.Data.Finset.Lattice.Fold
import Mathlib.Algebra.BigOperators.Group.Finset.Basic
import Mathlib.Algebra.BigOperators.Ring.Finset
import Mathlib.Algebra.Order.BigOperators.Group.Finset
import Mathlib.Order.BoundedOrder.Lattice
import Mathlib.Order.MinMax

noncomputable section

open scoped BigOperators

namespace DualSoftmax

open Idealize.ShloMosaic

theorem coe_sum {ι : Type} (S : Finset ι) (f : ι → ℝ) :
    ((∑ j ∈ S, f j : ℝ) : EReal) = ∑ j ∈ S, (f j : EReal) := by
  classical
  refine Finset.induction_on S (by simp) ?_
  intro j S hj ih
  rw [Finset.sum_insert hj, Finset.sum_insert hj, EReal.coe_add, ih]

theorem exp_coe_sub (x m : ℝ) :
    Ideal.exp ((x : EReal) - (m : EReal)) = ((Real.exp (x - m) : ℝ) : EReal) := by
  rw [← EReal.coe_sub]; rfl

/-- After the indices in `S`: `m` is their maximum, `l` and `o` the exponential sums shifted by `m`. -/
def GoodOn (x : Fin 2048 → ℝ) (v : Fin 2048 → Fin 1024 → ℝ) (S : Finset (Fin 2048)) (m l : EReal)
    (o : Fin 1024 → EReal) : Prop :=
  m = S.sup (fun j => (x j : EReal)) ∧ l = ∑ j ∈ S, Ideal.exp ((x j : EReal) - m) ∧
    ∀ d, o d = ∑ j ∈ S, Ideal.exp ((x j : EReal) - m) * (v j d : EReal)

theorem goodOn_empty (x : Fin 2048 → ℝ) (v : Fin 2048 → Fin 1024 → ℝ) :
    GoodOn x v ∅ ⊥ 0 (fun _ => 0) :=
  ⟨by simp, by simp, fun d => by simp⟩

theorem GoodOn.real {x : Fin 2048 → ℝ} {v : Fin 2048 → Fin 1024 → ℝ} {S : Finset (Fin 2048)} {m l : EReal}
    {o : Fin 1024 → EReal} (h : GoodOn x v S m l o) (hS : S.Nonempty) :
    ∃ mr : ℝ, m = (mr : EReal) ∧ l = ((∑ j ∈ S, Real.exp (x j - mr) : ℝ) : EReal) ∧
      ∀ d, o d = ((∑ j ∈ S, Real.exp (x j - mr) * v j d : ℝ) : EReal) := by
  obtain ⟨j0, _, hsup⟩ := Finset.exists_mem_eq_sup S hS (fun j => (x j : EReal))
  obtain ⟨hm, hl, ho⟩ := h
  have hm' : m = ((x j0 : ℝ) : EReal) := hm.trans hsup
  refine ⟨x j0, hm', ?_, fun d => ?_⟩
  · rw [hl, hm', coe_sum]; exact Finset.sum_congr rfl fun j _ => exp_coe_sub _ _
  · rw [ho d, hm', coe_sum]; exact Finset.sum_congr rfl fun j _ => by rw [exp_coe_sub, EReal.coe_mul]

theorem goodOn_of_real {x : Fin 2048 → ℝ} {v : Fin 2048 → Fin 1024 → ℝ} {S : Finset (Fin 2048)} {m l : EReal}
    {o : Fin 1024 → EReal} (mr : ℝ) (hm : m = S.sup fun j => (x j : EReal)) (hmr : m = (mr : EReal))
    (hl : l = ((∑ j ∈ S, Real.exp (x j - mr) : ℝ) : EReal))
    (ho : ∀ d, o d = ((∑ j ∈ S, Real.exp (x j - mr) * v j d : ℝ) : EReal)) : GoodOn x v S m l o := by
  refine ⟨hm, ?_, fun d => ?_⟩
  · rw [hl, hmr, coe_sum]; exact Finset.sum_congr rfl fun j _ => (exp_coe_sub _ _).symm
  · rw [ho d, hmr, coe_sum]; exact Finset.sum_congr rfl fun j _ => by rw [exp_coe_sub, EReal.coe_mul]

theorem coe_max' (x y : ℝ) : max (x : EReal) (y : EReal) = ((max x y : ℝ) : EReal) :=
  (EReal.coe_strictMono.monotone.map_max).symm

/-- Folding a further set in rescales by `exp (m - m')`: on reals `exp (x - m) * exp (m - m') = exp (x - m')`. -/
theorem GoodOn.upd {x : Fin 2048 → ℝ} {v : Fin 2048 → Fin 1024 → ℝ} {S : Finset (Fin 2048)} {m l : EReal}
    {o : Fin 1024 → EReal} (h : GoodOn x v S m l o) (T : Finset (Fin 2048)) (hT : T.Nonempty)
    (hd : Disjoint S T) :
    GoodOn x v (S ∪ T) (max m (T.sup fun j => (x j : EReal)))
      (Ideal.exp (m - max m (T.sup fun j => (x j : EReal))) * l
        + ∑ j ∈ T, Ideal.exp ((x j : EReal) - max m (T.sup fun j => (x j : EReal))))
      (fun d => Ideal.exp (m - max m (T.sup fun j => (x j : EReal))) * o d
        + ∑ j ∈ T, Ideal.exp ((x j : EReal) - max m (T.sup fun j => (x j : EReal))) * (v j d : EReal)) := by
  obtain ⟨c0, _, hTsup⟩ := Finset.exists_mem_eq_sup T hT (fun j => (x j : EReal))
  have hsup : max m (T.sup fun j => (x j : EReal)) = (S ∪ T).sup fun j => (x j : EReal) := by
    rw [Finset.sup_union, h.1]
  rcases S.eq_empty_or_nonempty with hS | hS
  · subst hS
    obtain ⟨hm, hl, ho⟩ := h
    simp only [Finset.sup_empty] at hm
    simp only [Finset.sum_empty] at hl ho
    subst hm; subst hl
    have hmax : max (⊥ : EReal) (T.sup fun j => (x j : EReal)) = ((x c0 : ℝ) : EReal) := by
      rw [max_bot_left, hTsup]
    refine goodOn_of_real (x c0) hsup hmax ?_ fun d => ?_
    · rw [hmax, mul_zero, zero_add, Finset.empty_union, coe_sum]
      exact Finset.sum_congr rfl fun j _ => exp_coe_sub _ _
    · rw [hmax, ho d, mul_zero, zero_add, Finset.empty_union, coe_sum]
      exact Finset.sum_congr rfl fun j _ => by rw [exp_coe_sub, EReal.coe_mul]
  · obtain ⟨mr, hmr, hl, ho⟩ := h.real hS
    have hmax : max m (T.sup fun j => (x j : EReal)) = ((max mr (x c0) : ℝ) : EReal) := by
      rw [hTsup, hmr, coe_max']
    refine goodOn_of_real (max mr (x c0)) hsup hmax ?_ fun d => ?_
    · have hT1 : ∑ j ∈ T, Ideal.exp ((x j : EReal) - ((max mr (x c0) : ℝ) : EReal))
          = ((∑ j ∈ T, Real.exp (x j - max mr (x c0)) : ℝ) : EReal) := by
        rw [coe_sum]; exact Finset.sum_congr rfl fun j _ => exp_coe_sub _ _
      rw [hmax, hmr, hl, exp_coe_sub, ← EReal.coe_mul, hT1, ← EReal.coe_add,
        Finset.sum_union hd, Finset.mul_sum]
      congr 2
      refine Finset.sum_congr rfl fun j _ => ?_
      rw [← Real.exp_add]; congr 1; ring
    · have hT1 : ∑ j ∈ T, Ideal.exp ((x j : EReal) - ((max mr (x c0) : ℝ) : EReal)) * (v j d : EReal)
          = ((∑ j ∈ T, Real.exp (x j - max mr (x c0)) * v j d : ℝ) : EReal) := by
        rw [coe_sum]; exact Finset.sum_congr rfl fun j _ => by rw [exp_coe_sub, EReal.coe_mul]
      rw [hmax, hmr, ho d, exp_coe_sub, ← EReal.coe_mul, hT1, ← EReal.coe_add,
        Finset.sum_union hd, Finset.mul_sum]
      congr 2
      refine Finset.sum_congr rfl fun j _ => ?_
      rw [← mul_assoc, ← Real.exp_add]; congr 2; ring

/-- Over all indices, dividing by the running sum gives the softmax-weighted sum. -/
theorem GoodOn.final {x : Fin 2048 → ℝ} {v : Fin 2048 → Fin 1024 → ℝ} {m l : EReal}
    {o : Fin 1024 → EReal} (h : GoodOn x v Finset.univ m l o) (d : Fin 1024) :
    Ideal.div (o d) l
      = ∑ j, Ideal.div (Ideal.exp ((x j : EReal) - m)) (∑ j', Ideal.exp ((x j' : EReal) - m)) * (v j d : EReal) := by
  obtain ⟨mr, hmr, hl, ho⟩ := h.real Finset.univ_nonempty
  have hl' : (∑ j', Ideal.exp ((x j' : EReal) - m)) = l := h.2.1.symm
  rw [hl', hl, ho d]
  have hL : (∑ j, Real.exp (x j - mr)) ≠ 0 :=
    ne_of_gt (Finset.sum_pos (fun j _ => Real.exp_pos _) Finset.univ_nonempty)
  rw [Ideal.div_coe hL, ← EReal.coe_mul, hmr]
  simp_rw [Ideal.div_coe hL, exp_coe_sub, ← EReal.coe_mul]
  rw [← coe_sum, Finset.sum_mul]
  congr 1
  refine Finset.sum_congr rfl fun j _ => ?_
  ring

def emb (t : Fin 4) (r : Fin 512) : Fin 2048 :=
  ⟨512 * t.val + r.val, by have := t.isLt; have := r.isLt; omega⟩

theorem emb_injective (t : Fin 4) : Function.Injective (emb t) := by
  intro r r' h
  have := congrArg Fin.val h
  simp only [emb] at this
  exact Fin.ext (by omega)

def tileS (t : Fin 4) : Finset (Fin 2048) := Finset.univ.map ⟨emb t, emb_injective t⟩

def seen (n : ℕ) : Finset (Fin 2048) := Finset.univ.filter fun g => g.val < 512 * n

theorem mem_tileS (t : Fin 4) (g : Fin 2048) : g ∈ tileS t ↔ g.val / 512 = t.val := by
  simp only [tileS, Finset.mem_map, Finset.mem_univ, true_and, Function.Embedding.coeFn_mk]
  constructor
  · rintro ⟨c, rfl⟩
    have := c.isLt
    simp only [emb]; omega
  · intro h
    exact ⟨⟨g.val % 512, Nat.mod_lt _ (by decide)⟩, Fin.ext (by simp only [emb]; omega)⟩

theorem tileS_nonempty (t : Fin 4) : (tileS t).Nonempty := ⟨emb t 0, by simp [tileS]⟩

theorem seen_zero : seen 0 = ∅ := by
  ext g; simp [seen]

theorem seen_four : seen 4 = Finset.univ := by
  ext g
  have := g.isLt
  simp only [seen, Finset.mem_filter, Finset.mem_univ, true_and, iff_true]; omega

theorem seen_succ (t : Fin 4) : seen (t.val + 1) = seen t.val ∪ tileS t := by
  ext g
  simp only [seen, Finset.mem_union, Finset.mem_filter, Finset.mem_univ, true_and, mem_tileS]; omega

theorem seen_disjoint (t : Fin 4) : Disjoint (seen t.val) (tileS t) := by
  rw [Finset.disjoint_left]
  intro g hg hg'
  rw [mem_tileS] at hg'
  simp only [seen, Finset.mem_filter, Finset.mem_univ, true_and] at hg
  omega

def cArr (x : Fin 2048 → Fin 1024 → ℝ) : Arr := fun i k => (x i k : EReal)

def er (ar br : Fin 2048 → Fin 1024 → ℝ) (i j : Fin 2048) : ℝ := ∑ k, ar i k * br j k

theorem e_coe (ar br : Fin 2048 → Fin 1024 → ℝ) (i j : Fin 2048) :
    e (cArr ar) (cArr br) i j = (er ar br i j : EReal) := by
  simp only [e, cArr, er, coe_sum, EReal.coe_mul]

theorem sc_coe (ar br : Fin 2048 → Fin 1024 → ℝ) (ii jj : Fin 4) (r c : Fin 512) :
    sc (tileOf (cArr ar) ii) (tileOf (cArr br) jj) r c = (er ar br (emb ii r) (emb jj c) : EReal) := by
  have h0 : ∀ x : ℝ, (x : EReal) - (x : EReal) = 0 := fun x => by
    rw [← EReal.coe_sub, sub_self, EReal.coe_zero]
  simp only [sc, tileOf, cArr, h0, mul_zero, zero_mul, Finset.sum_const_zero, add_zero, er, coe_sum,
    EReal.coe_mul]
  rfl

theorem row_upd (ar br : Fin 2048 → Fin 1024 → ℝ) (ii jj : Fin 4) (s : St) (r : Fin 512)
    (h : GoodOn (fun j => er ar br (emb ii r) j) br (seen jj.val) (ma0 jj s r) (la0 jj s r) (ao0 jj s r)) :
    GoodOn (fun j => er ar br (emb ii r) j) br (seen (jj.val + 1))
      (maN jj (tileOf (cArr ar) ii) (tileOf (cArr br) jj) s r)
      (laN jj (tileOf (cArr ar) ii) (tileOf (cArr br) jj) s r)
      (aoM jj (tileOf (cArr ar) ii) (tileOf (cArr br) jj) s r) := by
  have hu := h.upd (tileS jj) (tileS_nonempty jj) (seen_disjoint jj)
  rw [← seen_succ] at hu
  have e1 : maN jj (tileOf (cArr ar) ii) (tileOf (cArr br) jj) s r
      = max (ma0 jj s r) ((tileS jj).sup fun j => ((er ar br (emb ii r) j : ℝ) : EReal)) := by
    simp only [maN, rmax, tileS, Finset.sup_map, sc_coe]; rfl
  have e2 : laN jj (tileOf (cArr ar) ii) (tileOf (cArr br) jj) s r
      = Ideal.exp (ma0 jj s r - max (ma0 jj s r) ((tileS jj).sup fun j => ((er ar br (emb ii r) j : ℝ) : EReal)))
          * la0 jj s r
        + ∑ j ∈ tileS jj, Ideal.exp (((er ar br (emb ii r) j : ℝ) : EReal)
            - max (ma0 jj s r) ((tileS jj).sup fun j => ((er ar br (emb ii r) j : ℝ) : EReal))) := by
    simp only [laN, alpha, pr, e1, sc_coe]
    simp only [tileS, Finset.sum_map]; rfl
  have e3 : aoM jj (tileOf (cArr ar) ii) (tileOf (cArr br) jj) s r
      = fun d => Ideal.exp (ma0 jj s r - max (ma0 jj s r) ((tileS jj).sup fun j => ((er ar br (emb ii r) j : ℝ) : EReal)))
          * ao0 jj s r d
        + ∑ j ∈ tileS jj, Ideal.exp (((er ar br (emb ii r) j : ℝ) : EReal)
            - max (ma0 jj s r) ((tileS jj).sup fun j => ((er ar br (emb ii r) j : ℝ) : EReal))) * (br j d : EReal) := by
    funext d
    simp only [aoM, alpha, pr, e1, sc_coe]
    simp only [tileS, Finset.sum_map]; rfl
  rw [e1, e2, e3]; exact hu

theorem ao0_zero (s : St) (r : Fin 512) : ao0 0 s r = fun _ => 0 := by
  funext d; simp [ao0]

theorem ao0_ne {jj : Fin 4} (h : jj ≠ 0) (s : St) (r : Fin 512) : ao0 jj s r = s.ao r := by
  funext d; simp [ao0, h]

theorem aoN_ne {jj : Fin 4} (h : jj ≠ 3) (A B : Tile) (s : St) (r : Fin 512) :
    aoN jj A B s r = aoM jj A B s r := by
  funext d; simp [aoN, h]

def RowSt (ar br : Fin 2048 → Fin 1024 → ℝ) (ii : Fin 4) (n : ℕ) (s : St) : Prop :=
  ∀ r, GoodOn (fun j => er ar br (emb ii r) j) br (seen n) (s.ma r) (s.la r) (s.ao r)

theorem row_start (ar br : Fin 2048 → Fin 1024 → ℝ) (ii jj : Fin 4) (s : St)
    (h : jj ≠ 0 → RowSt ar br ii jj.val s) (r : Fin 512) :
    GoodOn (fun j => er ar br (emb ii r) j) br (seen jj.val) (ma0 jj s r) (la0 jj s r) (ao0 jj s r) := by
  by_cases hz : jj = 0
  · subst hz
    rw [ao0_zero, show ((0 : Fin 4).val) = 0 from rfl, seen_zero]
    simp only [ma0, la0, if_true]
    exact goodOn_empty _ _
  · rw [ao0_ne hz]
    simp only [ma0, la0, if_neg hz]
    exact h hz r

theorem row_step (ar br : Fin 2048 → Fin 1024 → ℝ) (ii jj : Fin 4) (hjj : jj ≠ 3) (s : St)
    (h : jj ≠ 0 → RowSt ar br ii jj.val s) :
    RowSt ar br ii (jj.val + 1) (step ii jj (tileOf (cArr ar) ii) (tileOf (cArr br) jj) s) := by
  intro r
  have h1 := row_upd ar br ii jj s r (row_start ar br ii jj s h r)
  show GoodOn _ _ _ (maN jj _ _ s r) (laN jj _ _ s r) (aoN jj _ _ s r)
  rw [aoN_ne hjj]; exact h1

theorem row_final (ar br : Fin 2048 → Fin 1024 → ℝ) (ii : Fin 4) (s : St) (h : RowSt ar br ii 3 s)
    (r : Fin 512) (d : Fin 1024) :
    (step ii 3 (tileOf (cArr ar) ii) (tileOf (cArr br) 3) s).ao r d
      = rowRes (cArr ar) (cArr br) (emb ii r) d := by
  have h1 := row_upd ar br ii 3 s r (row_start ar br ii 3 s (fun _ => h) r)
  rw [show (3 : Fin 4).val + 1 = 4 from rfl, seen_four] at h1
  have h2 := h1.final d
  show aoN 3 _ _ s r d = _
  rw [aoN, if_pos rfl, h2, h1.1]
  simp only [rowRes, rowMax, e_coe]
  rfl

def pst (a b : Fin 8 → Arr) (s0 : St) : ℕ → St
  | 0 => s0
  | n + 1 => kst a b s0 n

theorem pst_succ (a b : Fin 8 → Arr) (s0 : St) (n : ℕ) : pst a b s0 (n + 1) = kst a b s0 n := rfl

theorem kst_eq (a b : Fin 8 → Arr) (s0 : St) (n : ℕ) :
    kst a b s0 n = step (ptI n) (ptJ n) (tileOf (a (ptB n)) (ptI n)) (tileOf (b (ptB n)) (ptJ n))
      (pst a b s0 n) := by
  cases n <;> rfl

theorem kst_q (a b : Fin 8 → Arr) (s0 : St) (p : Fin 8) (q : ℕ) (hq : q < 16) :
    kst a b s0 (16 * p.val + q)
      = step (ptI q) (ptJ q) (tileOf (a p) (ptI q)) (tileOf (b p) (ptJ q)) (pst a b s0 (16 * p.val + q)) := by
  have hB : ptB (16 * p.val + q) = p := Fin.ext (by have := p.isLt; simp only [ptB]; omega)
  have hI : ptI (16 * p.val + q) = ptI q := Fin.ext (by simp only [ptI]; omega)
  have hJ : ptJ (16 * p.val + q) = ptJ q := Fin.ext (by simp only [ptJ]; omega)
  rw [kst_eq, hB, hI, hJ]

theorem row_chain (a b : Fin 8 → Arr) (s0 : St) (p : Fin 8) (ii : Fin 4) (ar br : Fin 2048 → Fin 1024 → ℝ)
    (ha' : a p = cArr ar) (hb' : b p = cArr br) :
    RowSt ar br ii 3 (kst a b s0 (16 * p.val + (4 * ii.val + 2))) := by
  have hi := ii.isLt
  have I : ∀ j, j < 4 → ptI (4 * ii.val + j) = ii := fun j hj => Fin.ext (by simp only [ptI]; omega)
  have J : ∀ j (hj : j < 4), ptJ (4 * ii.val + j) = ⟨j, hj⟩ := fun j hj =>
    Fin.ext (by simp only [ptJ]; omega)
  have h0 : RowSt ar br ii 1 (kst a b s0 (16 * p.val + (4 * ii.val + 0))) := by
    rw [kst_q a b s0 p _ (by omega), I 0 (by omega), J 0 (by omega), ha', hb']
    exact row_step ar br ii 0 (by decide) _ (fun h => absurd rfl h)
  have h1 : RowSt ar br ii 2 (kst a b s0 (16 * p.val + (4 * ii.val + 1))) := by
    rw [kst_q a b s0 p _ (by omega), I 1 (by omega), J 1 (by omega), ha', hb']
    exact row_step ar br ii 1 (by decide) _ (fun _ => h0)
  rw [kst_q a b s0 p _ (by omega), I 2 (by omega), J 2 (by omega), ha', hb']
  exact row_step ar br ii 2 (by decide) _ (fun _ => h1)

theorem emb_loc (jj : Fin 4) (g : Fin 2048) (h : inTile jj g) : emb jj (loc g) = g := by
  unfold inTile at h
  exact Fin.ext (by simp only [emb, loc]; omega)

theorem col_upd (ar br : Fin 2048 → Fin 1024 → ℝ) (ii jj : Fin 4) (s : St) (g : Fin 2048)
    (hin : inTile jj g) (o : Fin 1024 → EReal)
    (h : GoodOn (fun i => er ar br i g) ar (seen ii.val) (mb0 ii jj s g) (lb0 ii jj s g) o)
    (ho : ∀ d, bo0 ii jj s g d = o d) :
    GoodOn (fun i => er ar br i g) ar (seen (ii.val + 1))
      (mbN ii jj (tileOf (cArr ar) ii) (tileOf (cArr br) jj) s g)
      (lbN ii jj (tileOf (cArr ar) ii) (tileOf (cArr br) jj) s g)
      (boM ii jj (tileOf (cArr ar) ii) (tileOf (cArr br) jj) s g) := by
  have hu := h.upd (tileS ii) (tileS_nonempty ii) (seen_disjoint ii)
  rw [← seen_succ] at hu
  have hsc : ∀ r : Fin 512, sc (tileOf (cArr ar) ii) (tileOf (cArr br) jj) r (loc g)
      = ((er ar br (emb ii r) g : ℝ) : EReal) := fun r => by rw [sc_coe, emb_loc jj g hin]
  have e0 : mbT ii jj (tileOf (cArr ar) ii) (tileOf (cArr br) jj) s g
      = max (mb0 ii jj s g) ((tileS ii).sup fun i => ((er ar br i g : ℝ) : EReal)) := by
    simp only [mbT, cmax, tileS, Finset.sup_map, hsc]; rfl
  have e1 : mbN ii jj (tileOf (cArr ar) ii) (tileOf (cArr br) jj) s g
      = max (mb0 ii jj s g) ((tileS ii).sup fun i => ((er ar br i g : ℝ) : EReal)) := by
    rw [mbN, if_pos hin, e0]
  have e2 : lbN ii jj (tileOf (cArr ar) ii) (tileOf (cArr br) jj) s g
      = Ideal.exp (mb0 ii jj s g - max (mb0 ii jj s g) ((tileS ii).sup fun i => ((er ar br i g : ℝ) : EReal)))
          * lb0 ii jj s g
        + ∑ i ∈ tileS ii, Ideal.exp (((er ar br i g : ℝ) : EReal)
            - max (mb0 ii jj s g) ((tileS ii).sup fun i => ((er ar br i g : ℝ) : EReal))) := by
    rw [lbN, if_pos hin]
    simp only [beta, qc, e0, hsc]
    simp only [tileS, Finset.sum_map]; rfl
  have e3 : boM ii jj (tileOf (cArr ar) ii) (tileOf (cArr br) jj) s g
      = fun d => Ideal.exp (mb0 ii jj s g - max (mb0 ii jj s g) ((tileS ii).sup fun i => ((er ar br i g : ℝ) : EReal)))
          * o d
        + ∑ i ∈ tileS ii, Ideal.exp (((er ar br i g : ℝ) : EReal)
            - max (mb0 ii jj s g) ((tileS ii).sup fun i => ((er ar br i g : ℝ) : EReal))) * (ar i d : EReal) := by
    funext d
    rw [boM, if_pos hin, ho d]
    simp only [beta, qc, e0, hsc]
    simp only [tileS, Finset.sum_map]; rfl
  rw [e1, e2, e3]; exact hu

/-- A column's statistics after `n` row tiles, its accumulator divided by its sum once `n = 4`. -/
def ColG (ar br : Fin 2048 → Fin 1024 → ℝ) (g : Fin 2048) (n : ℕ) (mb lb : EReal) (bo : Fin 1024 → EReal) : Prop :=
  ∃ o : Fin 1024 → EReal, GoodOn (fun i => er ar br i g) ar (seen n) mb lb o ∧
    ∀ d, bo d = if n = 4 then Ideal.div (o d) lb else o d

theorem col_core (ar br : Fin 2048 → Fin 1024 → ℝ) (ii jj : Fin 4) (s : St) (g : Fin 2048) (c0 c1 : ℕ)
    (hstart : ColG ar br g c0 (mb0 ii jj s g) (lb0 ii jj s g) (bo0 ii jj s g))
    (htouch : inTile jj g → c0 = ii.val ∧ c1 = ii.val + 1) (hskip : ¬ inTile jj g → c1 = c0) :
    ColG ar br g c1 ((step ii jj (tileOf (cArr ar) ii) (tileOf (cArr br) jj) s).mb g)
      ((step ii jj (tileOf (cArr ar) ii) (tileOf (cArr br) jj) s).lb g)
      ((step ii jj (tileOf (cArr ar) ii) (tileOf (cArr br) jj) s).bo g) := by
  by_cases hin : inTile jj g
  · obtain ⟨h0, h1⟩ := htouch hin
    subst h0; subst h1
    obtain ⟨o, hG, hbo⟩ := hstart
    have hn4 : ii.val ≠ 4 := by have := ii.isLt; omega
    simp only [if_neg hn4] at hbo
    have hu := col_upd ar br ii jj s g hin o hG hbo
    refine ⟨boM ii jj _ _ s g, hu, fun d => ?_⟩
    show boN ii jj _ _ s g d = _
    by_cases h3 : ii = 3
    · subst h3
      rw [boN, if_pos ⟨hin, rfl⟩, if_pos (show (3 : Fin 4).val + 1 = 4 from rfl)]; rfl
    · have h3' : ¬ (ii.val + 1 = 4) := fun h => h3 (Fin.ext (by show ii.val = 3; omega))
      rw [boN, if_neg (fun h => h3 h.2), if_neg h3']
  · rw [hskip hin]
    have e1 : (step ii jj (tileOf (cArr ar) ii) (tileOf (cArr br) jj) s).mb g = mb0 ii jj s g := by
      show mbN ii jj _ _ s g = _
      rw [mbN, if_neg hin]
    have e2 : (step ii jj (tileOf (cArr ar) ii) (tileOf (cArr br) jj) s).lb g = lb0 ii jj s g := by
      show lbN ii jj _ _ s g = _
      rw [lbN, if_neg hin]
    have e3 : (step ii jj (tileOf (cArr ar) ii) (tileOf (cArr br) jj) s).bo g = bo0 ii jj s g := by
      funext d
      show boN ii jj _ _ s g d = _
      rw [boN, if_neg (fun h => hin h.1), boM, if_neg hin]
    rw [e1, e2, e3]; exact hstart

theorem ptI_val (n : ℕ) : (ptI n).val = n / 4 % 4 := rfl

theorem ptJ_val (n : ℕ) : (ptJ n).val = n % 4 := rfl

def cnt (q : ℕ) (g : Fin 2048) : ℕ := if g.val / 512 ≤ q % 4 then q / 4 + 1 else q / 4

def ColInv (ar br : Fin 2048 → Fin 1024 → ℝ) (q : ℕ) (s : St) : Prop :=
  ∀ g, ColG ar br g (cnt q g) (s.mb g) (s.lb g) (s.bo g)

theorem col_first (ar br : Fin 2048 → Fin 1024 → ℝ) (s : St) :
    ColInv ar br 0 (step (ptI 0) (ptJ 0) (tileOf (cArr ar) (ptI 0)) (tileOf (cArr br) (ptJ 0)) s) := by
  intro g
  have hg := g.isLt
  have h00 : ptI 0 = 0 ∧ ptJ 0 = 0 := ⟨rfl, rfl⟩
  refine col_core ar br (ptI 0) (ptJ 0) s g 0 (cnt 0 g) ?_ ?_ ?_
  · refine ⟨fun _ => 0, ?_, fun d => ?_⟩
    · rw [seen_zero]
      simp only [mb0, lb0, if_pos h00]
      exact goodOn_empty _ _
    · simp only [bo0, if_pos h00]; simp
  · intro hin
    unfold inTile at hin
    simp only [ptJ_val] at hin
    refine ⟨by simp only [ptI_val] <;> omega, ?_⟩
    simp only [ptI_val, cnt]
    split_ifs <;> omega
  · intro hin
    unfold inTile at hin
    simp only [ptJ, cnt] at hin ⊢
    split_ifs <;> omega

theorem col_next (ar br : Fin 2048 → Fin 1024 → ℝ) (q : ℕ) (hq : q + 1 < 16) (s : St) (h : ColInv ar br q s) :
    ColInv ar br (q + 1)
      (step (ptI (q + 1)) (ptJ (q + 1)) (tileOf (cArr ar) (ptI (q + 1))) (tileOf (cArr br) (ptJ (q + 1))) s) := by
  intro g
  have hg := g.isLt
  have hne : ¬ (ptI (q + 1) = 0 ∧ ptJ (q + 1) = 0) := by
    rintro ⟨h1, h2⟩
    have h1' := congrArg Fin.val h1
    have h2' := congrArg Fin.val h2
    simp only [ptI, ptJ] at h1' h2'
    change (q + 1) / 4 % 4 = 0 at h1'
    change (q + 1) % 4 = 0 at h2'
    omega
  refine col_core ar br (ptI (q + 1)) (ptJ (q + 1)) s g (cnt q g) (cnt (q + 1) g) ?_ ?_ ?_
  · have e1 : mb0 (ptI (q + 1)) (ptJ (q + 1)) s g = s.mb g := by rw [mb0, if_neg hne]
    have e2 : lb0 (ptI (q + 1)) (ptJ (q + 1)) s g = s.lb g := by rw [lb0, if_neg hne]
    have e3 : bo0 (ptI (q + 1)) (ptJ (q + 1)) s g = s.bo g := by funext d; rw [bo0, if_neg hne]
    rw [e1, e2, e3]; exact h g
  · intro hin
    unfold inTile at hin
    simp only [ptJ_val] at hin
    refine ⟨by simp only [ptI_val, cnt]; split_ifs <;> omega, ?_⟩
    simp only [ptI_val, cnt]
    split_ifs <;> omega
  · intro hin
    unfold inTile at hin
    simp only [ptJ, cnt] at hin ⊢
    split_ifs <;> omega

theorem col_chain (a b : Fin 8 → Arr) (s0 : St) (p : Fin 8) (ar br : Fin 2048 → Fin 1024 → ℝ)
    (ha' : a p = cArr ar) (hb' : b p = cArr br) :
    ∀ q, q < 16 → ColInv ar br q (kst a b s0 (16 * p.val + q)) := by
  intro q
  induction q with
  | zero =>
    intro hq
    rw [kst_q a b s0 p 0 hq, ha', hb']
    exact col_first ar br _
  | succ q ih =>
    intro hq
    rw [kst_q a b s0 p (q + 1) hq, ha', hb']
    exact col_next ar br q hq _ (ih (by omega))

/-- At the last column tile of row tile `ii` the row accumulator holds the first result's rows. -/
theorem kst_row (a b : Fin 8 → Arr) (ha : IsRealArr a) (hb : IsRealArr b) (s0 : St) (p : Fin 8) (ii : Fin 4)
    (r : Fin 512) (d : Fin 1024) :
    (kst a b s0 (16 * p.val + 4 * ii.val + 3)).ao r d
      = rowRes (a p) (b p) ⟨512 * ii.val + r.val, by have := ii.isLt; have := r.isLt; omega⟩ d := by
  choose ar har using ha
  choose br hbr using hb
  have ha' : a p = cArr (ar p) := by funext i k; exact har p i k
  have hb' : b p = cArr (br p) := by funext i k; exact hbr p i k
  have hi := ii.isLt
  have h2 := row_chain a b s0 p ii (ar p) (br p) ha' hb'
  have hI : ptI (4 * ii.val + 3) = ii := Fin.ext (by simp only [ptI]; omega)
  have hJ : ptJ (4 * ii.val + 3) = 3 := Fin.ext (by simp only [ptJ]; omega)
  rw [Nat.add_assoc, kst_q a b s0 p _ (by omega), hI, hJ, ha', hb']
  exact row_final (ar p) (br p) ii _ h2 r d

/-- At a batch element's last point the column accumulator holds the second result. -/
theorem kst_col (a b : Fin 8 → Arr) (ha : IsRealArr a) (hb : IsRealArr b) (s0 : St) (p : Fin 8)
    (g : Fin 2048) (d : Fin 1024) :
    (kst a b s0 (16 * p.val + 15)).bo g d = colRes (a p) (b p) g d := by
  choose ar har using ha
  choose br hbr using hb
  have ha' : a p = cArr (ar p) := by funext i k; exact har p i k
  have hb' : b p = cArr (br p) := by funext i k; exact hbr p i k
  obtain ⟨o, hG, hbo⟩ := col_chain a b s0 p (ar p) (br p) ha' hb' 15 (by norm_num) g
  have hc : cnt 15 g = 4 := by
    have hg := g.isLt
    simp only [cnt]; split_ifs <;> omega
  rw [hc, seen_four] at hG
  rw [hc] at hbo
  rw [hbo d, if_pos rfl, hG.final d, hG.1, ha', hb']
  simp only [colRes, colMax, e_coe]
  rfl

end DualSoftmax

end
-- ==== Proof.SpecArr.lean ====
import proofs.«413194_j57758720196677_3_alg».proof.Proof.Spec
import Idealize.ShloMosaic.Lib.ValueIdx

noncomputable section

namespace DualSoftmax

open Idealize.ShloMosaic Idealize.ShloMosaic.ValueIdx

abbrev SArr : Shape := ⟨3, ![8, 2048, 1024]⟩

def arrOf (x : SArr.Idx → EReal) (p : Fin 8) : Arr := fun i k => x (ix3 p i k)

/-- The two results as functions of the whole argument arrays. -/
def G0 (x0 x1 : SArr.Idx → EReal) : SArr.Idx → EReal := fun j => rowRes (arrOf x0 (j 0)) (arrOf x1 (j 0)) (j 1) (j 2)

def G1 (x0 x1 : SArr.Idx → EReal) : SArr.Idx → EReal := fun j => colRes (arrOf x0 (j 0)) (arrOf x1 (j 0)) (j 1) (j 2)

end DualSoftmax

end
-- ==== Proof.KIBlocks.lean ====
import proofs.«413194_j57758720196677_3_alg».proof.Proof.BodyKernelIdeal.Frame
import proofs.«413194_j57758720196677_3_alg».proof.Proof.StepDefs
import proofs.«413194_j57758720196677_3_alg».proof.Proof.SpecArr
import Idealize.ShloMosaic.Lib.Pipeline.Value

set_option maxRecDepth 16384

noncomputable section

namespace Cert.KernelIdeal.RunValue

open Cert.KernelIdeal Cert.KernelIdeal.Gen Cert.KernelIdeal.Body Cert.KernelIdeal.StepValue
open Idealize.ShloMosaic Idealize.ShloMosaic.TcCoe Idealize.ShloMosaic.ValueIdx Idealize.SL.Sem

variable (m : (ℓ : Loc nD τ sig) → Buf (Elt Ideal) ℓ)

private theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

private theorem t_lt (t : Fin cfg0.N) : t.val < 128 := t.isLt

private theorem emb0 (t : Fin cfg0.N) (r : Fin 512) (k : Fin 1024) :
    ((cfg0.win 0).blk t).view.emb (ix3 (0 : Fin 1) r k)
      = ix3 (DualSoftmax.ptB t.val) (⟨512 * (DualSoftmax.ptI t.val).val + r.val, by have := (DualSoftmax.ptI t.val).isLt; have := r.isLt; omega⟩ : Fin 2048) k := by
  obtain ⟨e0, e1, e2, -⟩ := idx_facts t
  have ht := t_lt t
  funext a; apply Fin.ext
  match a with
  | ⟨0, _⟩ =>
    show win0_0.index t (0 : Fin 3) * 1 + 1 * 0 = t.val / 16 % 8
    omega
  | ⟨1, _⟩ =>
    show win0_0.index t (1 : Fin 3) * 512 + 1 * r.val = 512 * (t.val / 4 % 4) + r.val
    omega
  | ⟨2, _⟩ =>
    show win0_0.index t (2 : Fin 3) * 1024 + 1 * k.val = k.val
    omega

private theorem emb1 (t : Fin cfg0.N) (r : Fin 512) (k : Fin 1024) :
    ((cfg0.win 1).blk t).view.emb (ix3 (0 : Fin 1) r k)
      = ix3 (DualSoftmax.ptB t.val) (⟨512 * (DualSoftmax.ptJ t.val).val + r.val, by have := (DualSoftmax.ptJ t.val).isLt; have := r.isLt; omega⟩ : Fin 2048) k := by
  obtain ⟨-, -, -, e0, e1, e2, -⟩ := idx_facts t
  have ht := t_lt t
  funext a; apply Fin.ext
  match a with
  | ⟨0, _⟩ =>
    show win0_1.index t (0 : Fin 3) * 1 + 1 * 0 = t.val / 16 % 8
    omega
  | ⟨1, _⟩ =>
    show win0_1.index t (1 : Fin 3) * 512 + 1 * r.val = 512 * (t.val % 4) + r.val
    omega
  | ⟨2, _⟩ =>
    show win0_1.index t (2 : Fin 3) * 1024 + 1 * k.val = k.val
    omega

private theorem emb2 (t : Fin cfg0.N) (r : Fin 512) (d : Fin 1024) :
    ((cfg0.win 2).blk t).view.emb (ix3 (0 : Fin 1) r d)
      = ix3 (DualSoftmax.ptB t.val) (⟨512 * (DualSoftmax.ptI t.val).val + r.val, by have := (DualSoftmax.ptI t.val).isLt; have := r.isLt; omega⟩ : Fin 2048) d := by
  obtain ⟨-, -, -, -, -, -, e0, e1, e2, -⟩ := idx_facts t
  have ht := t_lt t
  funext a; apply Fin.ext
  match a with
  | ⟨0, _⟩ =>
    show win0_2.index t (0 : Fin 3) * 1 + 1 * 0 = t.val / 16 % 8
    omega
  | ⟨1, _⟩ =>
    show win0_2.index t (1 : Fin 3) * 512 + 1 * r.val = 512 * (t.val / 4 % 4) + r.val
    omega
  | ⟨2, _⟩ =>
    show win0_2.index t (2 : Fin 3) * 1024 + 1 * d.val = d.val
    omega

private theorem emb3 (t : Fin cfg0.N) (g : Fin 2048) (d : Fin 1024) :
    ((cfg0.win 3).blk t).view.emb (ix3 (0 : Fin 1) g d) = ix3 (DualSoftmax.ptB t.val) g d := by
  obtain ⟨-, -, -, -, -, -, -, -, -, e0, e1, e2⟩ := idx_facts t
  have ht := t_lt t
  funext a; apply Fin.ext
  match a with
  | ⟨0, _⟩ =>
    show win0_3.index t (0 : Fin 3) * 1 + 1 * 0 = t.val / 16 % 8
    omega
  | ⟨1, _⟩ =>
    show win0_3.index t (1 : Fin 3) * 2048 + 1 * g.val = g.val
    omega
  | ⟨2, _⟩ =>
    show win0_3.index t (2 : Fin 3) * 1024 + 1 * d.val = d.val
    omega

theorem tile0 (c : Dev nD) (t : Fin cfg0.N) :
    tileV (iblk m c 0 t) = DualSoftmax.tileOf (DualSoftmax.arrOf (m ((c.tc : Thread nD τ).loc main_arg0)) (DualSoftmax.ptB t.val)) (DualSoftmax.ptI t.val) := by
  funext r k
  show V m c main_arg0 (((cfg0.win 0).blk t).view.emb (ix3 (0 : Fin 1) r k)) = _
  rw [emb0 t r k]
  rfl

theorem tile1 (c : Dev nD) (t : Fin cfg0.N) :
    tileV (iblk m c 1 t) = DualSoftmax.tileOf (DualSoftmax.arrOf (m ((c.tc : Thread nD τ).loc main_arg1)) (DualSoftmax.ptB t.val)) (DualSoftmax.ptJ t.val) := by
  funext r k
  show V m c main_arg1 (((cfg0.win 1).blk t).view.emb (ix3 (0 : Fin 1) r k)) = _
  rw [emb1 t r k]
  rfl

theorem blk2_read (c : Dev nD) (t : Fin cfg0.N) (G : S8x2048x1024.Idx → EReal) (r : Fin 512) (d : Fin 1024) :
    ((cfg0.win 2).blk t).view.read (Elt Ideal) G (ix3 (0 : Fin 1) r d)
      = G (ix3 (DualSoftmax.ptB t.val) (⟨512 * (DualSoftmax.ptI t.val).val + r.val, by have := (DualSoftmax.ptI t.val).isLt; have := r.isLt; omega⟩ : Fin 2048) d) := by
  show G (((cfg0.win 2).blk t).view.emb (ix3 (0 : Fin 1) r d)) = _
  rw [emb2 t r d]

theorem blk3_read (c : Dev nD) (t : Fin cfg0.N) (G : S8x2048x1024.Idx → EReal) (g : Fin 2048) (d : Fin 1024) :
    ((cfg0.win 3).blk t).view.read (Elt Ideal) G (ix3 (0 : Fin 1) g d) = G (ix3 (DualSoftmax.ptB t.val) g d) := by
  show G (((cfg0.win 3).blk t).view.emb (ix3 (0 : Fin 1) g d)) = _
  rw [emb3 t g d]

private theorem mem_blk2 (t : Fin cfg0.N) (j : S8x2048x1024.Idx) :
    j ∈ ((cfg0.win 2).blk t).view.set ↔ ∀ a : Fin 3, win0_2.index t a * S1x512x1024.size a ≤ (j a).val ∧ (j a).val < win0_2.index t a * S1x512x1024.size a + S1x512x1024.size a := by
  show j ∈ ((View.whole main_v0_0).slice (win0_2.rect t)).set ↔ _
  rw [View.set_slice_whole, Rect.mem_set_unit]
  exact Iff.rfl

private theorem mem_blk3 (t : Fin cfg0.N) (j : S8x2048x1024.Idx) :
    j ∈ ((cfg0.win 3).blk t).view.set ↔ ∀ a : Fin 3, win0_3.index t a * S1x2048x1024.size a ≤ (j a).val ∧ (j a).val < win0_3.index t a * S1x2048x1024.size a + S1x2048x1024.size a := by
  show j ∈ ((View.whole main_v0_1).slice (win0_3.rect t)).set ↔ _
  rw [View.set_slice_whole, Rect.mem_set_unit]
  exact Iff.rfl

private theorem cover2_ix (j : S8x2048x1024.Idx) :
    ∃ t : Fin cfg0.N, (cfg0.win 2).flush t = true ∧ j ∈ ((cfg0.win 2).blk t).view.set := by
  have h0 : (j 0).val < 8 := (j 0).isLt
  have h1 : (j 1).val < 2048 := (j 1).isLt
  have h2 : (j 2).val < 1024 := (j 2).isLt
  let t : Fin cfg0.N := ⟨16 * (j 0).val + 4 * ((j 1).val / 512) + 3, by show _ < 128; omega⟩
  have htv : t.val = 16 * (j 0).val + 4 * ((j 1).val / 512) + 3 := rfl
  obtain ⟨-, -, -, -, -, -, e0, e1, e2, -⟩ := idx_facts t
  refine ⟨t, (flush0_2 t).2 (by omega), ?_⟩
  rw [mem_blk2]
  intro a
  match a with
  | ⟨0, _⟩ =>
    show win0_2.index t (0 : Fin 3) * 1 ≤ (j 0).val ∧ (j 0).val < win0_2.index t (0 : Fin 3) * 1 + 1
    omega
  | ⟨1, _⟩ =>
    show win0_2.index t (1 : Fin 3) * 512 ≤ (j 1).val ∧ (j 1).val < win0_2.index t (1 : Fin 3) * 512 + 512
    omega
  | ⟨2, _⟩ =>
    show win0_2.index t (2 : Fin 3) * 1024 ≤ (j 2).val ∧ (j 2).val < win0_2.index t (2 : Fin 3) * 1024 + 1024
    omega

private theorem cover3_ix (j : S8x2048x1024.Idx) :
    ∃ t : Fin cfg0.N, (cfg0.win 3).flush t = true ∧ j ∈ ((cfg0.win 3).blk t).view.set := by
  have h0 : (j 0).val < 8 := (j 0).isLt
  have h1 : (j 1).val < 2048 := (j 1).isLt
  have h2 : (j 2).val < 1024 := (j 2).isLt
  let t : Fin cfg0.N := ⟨16 * (j 0).val + 15, by show _ < 128; omega⟩
  have htv : t.val = 16 * (j 0).val + 15 := rfl
  obtain ⟨-, -, -, -, -, -, -, -, -, e0, e1, e2⟩ := idx_facts t
  refine ⟨t, (flush0_3 t).2 (by omega), ?_⟩
  rw [mem_blk3]
  intro a
  match a with
  | ⟨0, _⟩ =>
    show win0_3.index t (0 : Fin 3) * 1 ≤ (j 0).val ∧ (j 0).val < win0_3.index t (0 : Fin 3) * 1 + 1
    omega
  | ⟨1, _⟩ =>
    show win0_3.index t (1 : Fin 3) * 2048 ≤ (j 1).val ∧ (j 1).val < win0_3.index t (1 : Fin 3) * 2048 + 2048
    omega
  | ⟨2, _⟩ =>
    show win0_3.index t (2 : Fin 3) * 1024 ≤ (j 2).val ∧ (j 2).val < win0_3.index t (2 : Fin 3) * 1024 + 1024
    omega

theorem cover2 (c : Dev nD) (j : (((cfg0.win 2).arr.view.loc (c.tc : Thread nD τ)).2.ty).Idx) :
    ∃ t : Fin cfg0.N, (cfg0.win 2).flush t = true ∧ j ∈ ((cfg0.win 2).blk t).view.set :=
  cover2_ix j

theorem cover3 (c : Dev nD) (j : (((cfg0.win 3).arr.view.loc (c.tc : Thread nD τ)).2.ty).Idx) :
    ∃ t : Fin cfg0.N, (cfg0.win 3).flush t = true ∧ j ∈ ((cfg0.win 3).blk t).view.set :=
  cover3_ix j

end Cert.KernelIdeal.RunValue

end
-- ==== Proof.KIValue.lean ====
import proofs.«413194_j57758720196677_3_alg».proof.Proof.BodyKernelIdeal.Frame
import proofs.«413194_j57758720196677_3_alg».proof.Proof.StepRow
import proofs.«413194_j57758720196677_3_alg».proof.Proof.StepCol
import proofs.«413194_j57758720196677_3_alg».proof.Proof.Math
import proofs.«413194_j57758720196677_3_alg».proof.Proof.SpecArr
import proofs.«413194_j57758720196677_3_alg».proof.Proof.KIBlocks
import Idealize.ShloMosaic.Lib.Pipeline.Value

set_option maxRecDepth 16384

noncomputable section

namespace Cert.KernelIdeal.RunValue

open Cert.KernelIdeal Cert.KernelIdeal.Gen Cert.KernelIdeal.Body Cert.KernelIdeal.StepValue
open Idealize.ShloMosaic Idealize.ShloMosaic.TcCoe Idealize.ShloMosaic.ValueIdx Idealize.SL.Sem

variable (m : (ℓ : Loc nD τ sig) → Buf (Elt Ideal) ℓ) (ρ : Dev nD → PrngReg)

namespace Iter

theorem st_ext (s t : DualSoftmax.St) (h1 : s.ao = t.ao) (h2 : s.bo = t.bo) (h3 : s.ma = t.ma) (h4 : s.la = t.la)
    (h5 : s.mb = t.mb) (h6 : s.lb = t.lb) : s = t := by
  cases s; cases t
  dsimp only at h1 h2 h3 h4 h5 h6
  subst h1 h2 h3 h4 h5 h6
  rfl

def stB (b : Bufs Ideal) : DualSoftmax.St := stV b.y5 b.y6 b.s7 b.s8 b.s9 b.s10

theorem stV_nx (i : grid0.Coords) (x0 x1 : Vec Ideal S1x512x1024 .f32) (y5 : Vec Ideal S1x512x1024 .f32)
    (y6 : Vec Ideal S1x2048x1024 .f32) (s7 s8 : Vec Ideal S512x1 .f32) (s9 s10 : Vec Ideal S1x2048 .f32) :
    stV (nx5 i x0 x1 y5 s7 s8) (nx6 i x0 x1 y6 s9 s10) (nx7 i x0 x1 s7) (nx8 i x0 x1 s7 s8) (nx9 i x0 x1 s9)
        (nx10 i x0 x1 s9 s10)
      = DualSoftmax.step (iiOf i) (jjOf i) (tileV x0) (tileV x1) (stV y5 y6 s7 s8 s9 s10) := by
  conv_lhs => unfold stV
  unfold DualSoftmax.step
  congr 1
  · funext r d; exact nx5_apply i x0 x1 y5 y6 s7 s8 s9 s10 r d
  · funext g d; exact nx6_apply i x0 x1 y5 y6 s7 s8 s9 s10 g d
  · funext r; exact nx7_apply i x0 x1 y5 y6 s7 s8 s9 s10 r
  · funext r; exact nx8_apply i x0 x1 y5 y6 s7 s8 s9 s10 r
  · funext g; exact nx9_apply i x0 x1 y5 y6 s7 s8 s9 s10 g
  · funext g; exact nx10_apply i x0 x1 y5 y6 s7 s8 s9 s10 g

theorem stB_nxAll (i : grid0.Coords) (x0 x1 : Vec Ideal S1x512x1024 .f32) (b : Bufs Ideal) :
    stB (nxAll i x0 x1 b) = DualSoftmax.step (iiOf i) (jjOf i) (tileV x0) (tileV x1) (stB b) := by
  unfold stB
  dsimp only [nxAll]
  exact stV_nx i x0 x1 b.y5 b.y6 b.s7 b.s8 b.s9 b.s10

abbrev aOf (c : Dev nD) : Fin 8 → DualSoftmax.Arr := DualSoftmax.arrOf (m ((c.tc : Thread nD τ).loc main_arg0))
abbrev bOf (c : Dev nD) : Fin 8 → DualSoftmax.Arr := DualSoftmax.arrOf (m ((c.tc : Thread nD τ).loc main_arg1))

theorem N128 : cfg0.N = 128 := N_0

theorem iiOf_eq (t : Fin cfg0.N) : iiOf (grid0.coords t) = DualSoftmax.ptI t.val := Fin.ext (hcoord1 t)
theorem jjOf_eq (t : Fin cfg0.N) : jjOf (grid0.coords t) = DualSoftmax.ptJ t.val := Fin.ext (hcoord2 t)

def s0V : DualSoftmax.St :=
  stB ⟨k0_pay8 (F := Ideal), k0_pay5 (F := Ideal), k0_pay9 (F := Ideal), k0_pay10 (F := Ideal), k0_pay6 (F := Ideal), k0_pay7 (F := Ideal)⟩

/-- What the six buffers hold after point `n` is the `n`-th state of the specification's iteration. -/
theorem outs_kst (c : Dev nD) : ∀ (n : ℕ) (h : n < cfg0.N),
    stB (outsAt m c n h) = DualSoftmax.kst (aOf m c) (bOf m c) s0V n := by
  intro n
  induction n with
  | zero =>
    intro h
    show stB (nxAll (grid0.coords ⟨0, h⟩) (iblk m c 0 ⟨0, h⟩) (iblk m c 1 ⟨0, h⟩) _) = _
    rw [stB_nxAll, tile0 m, tile1 m, iiOf_eq, jjOf_eq]
    rfl
  | succ n ih =>
    intro h
    show stB (nxAll (grid0.coords ⟨n + 1, h⟩) (iblk m c 0 ⟨n + 1, h⟩) (iblk m c 1 ⟨n + 1, h⟩) (outsAt m c n (Nat.lt_of_succ_lt h))) = _
    rw [stB_nxAll, tile0 m, tile1 m, iiOf_eq, jjOf_eq, ih]
    rfl

section closed

open DualSoftmax

variable (X0 X1 : S8x2048x1024.Idx → EReal)

theorem kst_ao_G0 (hX0 : ∀ j, ∃ r : ℝ, X0 j = (r : EReal)) (hX1 : ∀ j, ∃ r : ℝ, X1 j = (r : EReal)) (s0 : St)
    (n : ℕ) (hn : n < 128) (h3 : n % 4 = 3) (r : Fin 512) (d : Fin 1024) (k : S8x2048x1024.Idx)
    (hk0 : (k 0).val = n / 16) (hk1 : (k 1).val = 512 * (n / 4 % 4) + r.val) (hk2 : (k 2).val = d.val) :
    (kst (arrOf X0) (arrOf X1) s0 n).ao r d = G0 X0 X1 k := by
  have hp : n / 16 < 8 := by omega
  have hi : n / 4 % 4 < 4 := by omega
  have hr := r.isLt
  have e : 16 * (⟨n / 16, hp⟩ : Fin 8).val + 4 * (⟨n / 4 % 4, hi⟩ : Fin 4).val + 3 = n := by
    show 16 * (n / 16) + 4 * (n / 4 % 4) + 3 = n; omega
  have hrow := kst_row (arrOf X0) (arrOf X1) (fun p i k => hX0 (ix3 p i k)) (fun p i k => hX1 (ix3 p i k)) s0
    ⟨n / 16, hp⟩ ⟨n / 4 % 4, hi⟩ r d
  rw [e] at hrow
  have hk : k = ix3 (⟨n / 16, hp⟩ : Fin 8) (⟨512 * (n / 4 % 4) + r.val, by omega⟩ : Fin 2048) d := by
    funext a; apply Fin.ext
    match a with
    | ⟨0, _⟩ => exact hk0
    | ⟨1, _⟩ => exact hk1
    | ⟨2, _⟩ => exact hk2
  rw [hk]
  exact hrow

theorem kst_bo_G1 (hX0 : ∀ j, ∃ r : ℝ, X0 j = (r : EReal)) (hX1 : ∀ j, ∃ r : ℝ, X1 j = (r : EReal)) (s0 : St)
    (n : ℕ) (hn : n < 128) (h15 : n % 16 = 15) (g : Fin 2048) (d : Fin 1024) (k : S8x2048x1024.Idx)
    (hk0 : (k 0).val = n / 16) (hk1 : (k 1).val = g.val) (hk2 : (k 2).val = d.val) :
    (kst (arrOf X0) (arrOf X1) s0 n).bo g d = G1 X0 X1 k := by
  have hp : n / 16 < 8 := by omega
  have e : 16 * (⟨n / 16, hp⟩ : Fin 8).val + 15 = n := by
    show 16 * (n / 16) + 15 = n; omega
  have hcol := kst_col (arrOf X0) (arrOf X1) (fun p i k => hX0 (ix3 p i k)) (fun p i k => hX1 (ix3 p i k)) s0
    ⟨n / 16, hp⟩ g d
  rw [e] at hcol
  have hk : k = ix3 (⟨n / 16, hp⟩ : Fin 8) g d := by
    funext a; apply Fin.ext
    match a with
    | ⟨0, _⟩ => exact hk0
    | ⟨1, _⟩ => exact hk1
    | ⟨2, _⟩ => exact hk2
  rw [hk]
  exact hcol

end closed

section blocks

variable (hA : ∀ (c : Dev nD) (j : S8x2048x1024.Idx), ∃ r : ℝ, m ((c.tc : Thread nD τ).loc main_arg0) j = (r : EReal))
  (hB : ∀ (c : Dev nD) (j : S8x2048x1024.Idx), ∃ r : ℝ, m ((c.tc : Thread nD τ).loc main_arg1) j = (r : EReal))

include hA hB

theorem y5_block (c : Dev nD) (t : Fin cfg0.N) (ht : t.val % 4 = 3) :
    ((outsAt m c t.val t.isLt).y5 : S1x512x1024.Idx → EReal)
      = ((cfg0.win 2).blk t).view.read (Elt Ideal)
          (DualSoftmax.G0 (m ((c.tc : Thread nD τ).loc main_arg0)) (m ((c.tc : Thread nD τ).loc main_arg1))) := by
  have hN : t.val < 128 := N128 ▸ t.isLt
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  refine Eq.trans ?_ (blk2_read c t _ r d).symm
  have e : (outsAt m c t.val t.isLt).y5 (ix3 (0 : Fin 1) r d) = (stB (outsAt m c t.val t.isLt)).ao r d := rfl
  rw [e, outs_kst]
  refine kst_ao_G0 _ _ (hA c) (hB c) s0V t.val hN ht r d _ ?_ rfl rfl
  show t.val / 16 % 8 = t.val / 16
  omega

theorem y6_block (c : Dev nD) (t : Fin cfg0.N) (ht : t.val % 16 = 15) :
    ((outsAt m c t.val t.isLt).y6 : S1x2048x1024.Idx → EReal)
      = ((cfg0.win 3).blk t).view.read (Elt Ideal)
          (DualSoftmax.G1 (m ((c.tc : Thread nD τ).loc main_arg0)) (m ((c.tc : Thread nD τ).loc main_arg1))) := by
  have hN : t.val < 128 := N128 ▸ t.isLt
  funext j
  obtain ⟨z, g, d, rfl⟩ : ∃ (z : Fin 1) (g : Fin 2048) (d : Fin 1024), j = ix3 z g d := ⟨j 0, j 1, j 2, eq_ix3 j⟩
  obtain rfl : z = 0 := Subsingleton.elim _ _
  refine Eq.trans ?_ (blk3_read c t _ g d).symm
  have e : (outsAt m c t.val t.isLt).y6 (ix3 (0 : Fin 1) g d) = (stB (outsAt m c t.val t.isLt)).bo g d := rfl
  rw [e, outs_kst]
  refine kst_bo_G1 _ _ (hA c) (hB c) s0V t.val hN ht g d _ ?_ rfl rfl
  show t.val / 16 % 8 = t.val / 16
  omega

theorem flushed2_eq (c : Dev nD) (t : Fin cfg0.N) (hf : (cfg0.win 2).flush t = true) :
    (dats m 0 c).flushed 2 t = ((cfg0.win 2).blk t).view.read (Elt Ideal)
      (DualSoftmax.G0 (m ((c.tc : Thread nD τ).loc main_arg0)) (m ((c.tc : Thread nD τ).loc main_arg1))) := by
  have ht : t.val % 4 = 3 := (flush0_2 t).mp hf
  show (cfg0.win 2).cut (grid0.coords t) ((dats m 0 c).after 2 t) = _
  rw [after2]
  exact y5_block m hA hB c t ht

theorem flushed3_eq (c : Dev nD) (t : Fin cfg0.N) (hf : (cfg0.win 3).flush t = true) :
    (dats m 0 c).flushed 3 t = ((cfg0.win 3).blk t).view.read (Elt Ideal)
      (DualSoftmax.G1 (m ((c.tc : Thread nD τ).loc main_arg0)) (m ((c.tc : Thread nD τ).loc main_arg1))) := by
  have ht : t.val % 16 = 15 := (flush0_3 t).mp hf
  show (cfg0.win 3).cut (grid0.coords t) ((dats m 0 c).after 3 t) = _
  rw [after3]
  exact y6_block m hA hB c t ht

theorem final2 (c : Dev nD) : (dats m 0 c).arrAt 2 cfg0.N
    = DualSoftmax.G0 (m ((c.tc : Thread nD τ).loc main_arg0)) (m ((c.tc : Thread nD τ).loc main_arg1)) :=
  (dats m 0 c).arrAt_eq_of_cover 2 _ (fun t hf => flushed2_eq m hA hB c t hf) (cover2 c)

theorem final3 (c : Dev nD) : (dats m 0 c).arrAt 3 cfg0.N
    = DualSoftmax.G1 (m ((c.tc : Thread nD τ).loc main_arg0)) (m ((c.tc : Thread nD τ).loc main_arg1)) :=
  (dats m 0 c).arrAt_eq_of_cover 3 _ (fun t hf => flushed3_eq m hA hB c t hf) (cover3 c)

end blocks

end Iter

/-- The idealized kernel's run ends with its two outputs at `G0` and `G1` of the arguments. -/
theorem run_values
    (hA : ∀ (c : Dev nD) (j : S8x2048x1024.Idx), ∃ r : ℝ, m ((c.tc : Thread nD τ).loc main_arg0) j = (r : EReal))
    (hB : ∀ (c : Dev nD) (j : S8x2048x1024.Idx), ∃ r : ℝ, m ((c.tc : Thread nD τ).loc main_arg1) j = (r : EReal)) :
    θ_run (defs (F := Ideal)) (onTc (τ := τ) (main (F := Ideal))) ⟨m, fun _ => 0, ρ⟩ (fun r => ∀ c : Dev nD,
      r.2.mem ((c.tc : Thread nD τ).loc main_v0_0)
          = DualSoftmax.G0 (m ((c.tc : Thread nD τ).loc main_arg0)) (m ((c.tc : Thread nD τ).loc main_arg1))
      ∧ r.2.mem ((c.tc : Thread nD τ).loc main_v0_1)
          = DualSoftmax.G1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 2).trans (Iter.final2 m hA hB c), ((h c).1 3).trans (Iter.final3 m hA hB c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main (F := Ideal) m ρ)

end Cert.KernelIdeal.RunValue

end
-- ==== Proof.RefSide.lean ====
import proofs.«413194_j57758720196677_3_alg».proof.Proof.Gen.ReferenceIdeal.Run
import proofs.«413194_j57758720196677_3_alg».proof.Proof.Gen.ReferenceIdeal.Read
import proofs.«413194_j57758720196677_3_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

def arrOf (x : (⟨S8x2048x1024, .f32⟩ : BufTy).Contents (Elt Ideal)) (p : Fin 8) : DualSoftmax.Arr :=
  fun i k => x (ix3 p i k)

theorem lidx_v0 (p : Fin 8) (i j : Fin 2048) (k : Fin 1024) : lidx_main_v0 (ix3 p i j) k = ix3 p i k :=
  funext fun a => Fin.ext (by match a with | ⟨0, _⟩ => rfl | ⟨1, _⟩ => rfl | ⟨2, _⟩ => rfl)

theorem ridx_v0 (p : Fin 8) (i j : Fin 2048) (k : Fin 1024) : ridx_main_v0 (ix3 p i j) k = ix3 p j k :=
  funext fun a => Fin.ext (by match a with | ⟨0, _⟩ => rfl | ⟨1, _⟩ => rfl | ⟨2, _⟩ => rfl)

theorem v0_apply (x0 x1 : (⟨S8x2048x1024, .f32⟩ : BufTy).Contents (Elt Ideal)) (p : Fin 8) (i j : Fin 2048) :
    val_main_v0 (F := Ideal) x0 x1 (ix3 p i j) = DualSoftmax.e (arrOf x0 p) (arrOf x1 p) i j := by
  rw [val_main_v0_apply]
  simp only [lidx_v0, ridx_v0]
  rfl

theorem ofBits_bot : Ideal.ofBits .f32 0xFF800000#32 = (⊥ : EReal) := by simp [Ideal.ofBits, Ideal.ieee]

theorem fold_max_bot {n : ℕ} (f : Fin n → EReal) :
    (Finset.univ : Finset (Fin n)).fold max ⊥ f = Finset.univ.sup f := rfl

theorem hred2 : S8x2048x2048.Reduces [2] S8x2048 := by decide
theorem hred1 : S8x2048x2048.Reduces [1] S8x2048 := by decide

theorem lift_d2 (p : Fin 8) (i : Fin 2048) (k : Fin (S8x2048x2048.size 2)) :
    hred2.lift (ix2 p i) k = ix3 p i (⟨k.val, k.isLt⟩ : Fin 2048) := by
  funext c; apply Fin.ext
  match c with | ⟨0, _⟩ => rfl | ⟨1, _⟩ => rfl | ⟨2, _⟩ => rfl

theorem lift_d1 (p : Fin 8) (j : Fin 2048) (k : Fin (S8x2048x2048.size 1)) :
    hred1.lift (ix2 p j) k = ix3 p (⟨k.val, k.isLt⟩ : Fin 2048) j := by
  funext c; apply Fin.ext
  match c with | ⟨0, _⟩ => rfl | ⟨1, _⟩ => rfl | ⟨2, _⟩ => rfl

theorem v1_apply (x0 x1 : (⟨S8x2048x1024, .f32⟩ : BufTy).Contents (Elt Ideal)) (p : Fin 8) (i : Fin 2048) :
    val_main_v1 (F := Ideal) x0 x1 (ix2 p i) = DualSoftmax.rowMax (arrOf x0 p) (arrOf x1 p) i := by
  unfold val_main_v1
  rw [Host.reduce_eq_fold_single FloatOps.maximumf _ _ reducesTo_S8x2048x2048_S8x2048_d2 hred2 h_S_]
  have hf : (val_main_v0 (F := Ideal) x0 x1 ∘ hred2.lift (ix2 p i))
      = fun k : Fin 2048 => DualSoftmax.e (arrOf x0 p) (arrOf x1 p) i k :=
    funext fun k => by
      show val_main_v0 (F := Ideal) x0 x1 (hred2.lift (ix2 p i) k) = _
      rw [lift_d2, v0_apply]
      rfl
  rw [hf, val_main_cst_apply, Ideal.ofBits_def, ofBits_bot]
  exact fold_max_bot _

theorem v12_apply (x0 x1 : (⟨S8x2048x1024, .f32⟩ : BufTy).Contents (Elt Ideal)) (p : Fin 8) (j : Fin 2048) :
    val_main_v12 (F := Ideal) x0 x1 (ix2 p j) = DualSoftmax.colMax (arrOf x0 p) (arrOf x1 p) j := by
  unfold val_main_v12
  rw [Host.reduce_eq_fold_single FloatOps.maximumf _ _ reducesTo_S8x2048x2048_S8x2048_d1 hred1 h_S_]
  have hf : (val_main_v0 (F := Ideal) x0 x1 ∘ hred1.lift (ix2 p j))
      = fun k : Fin 2048 => DualSoftmax.e (arrOf x0 p) (arrOf x1 p) k j :=
    funext fun k => by
      show val_main_v0 (F := Ideal) x0 x1 (hred1.lift (ix2 p j) k) = _
      rw [lift_d1, v0_apply]
      rfl
  rw [hf, val_main_cst_2_apply, Ideal.ofBits_def, ofBits_bot]
  exact fold_max_bot _

theorem v3_apply (x0 x1 : (⟨S8x2048x1024, .f32⟩ : BufTy).Contents (Elt Ideal)) (p : Fin 8) (i : Fin 2048) :
    val_main_v3 (F := Ideal) x0 x1 (ix2 p i) = DualSoftmax.rowMax (arrOf x0 p) (arrOf x1 p) i := by
  rw [val_main_v3_apply, val_main_v2_apply, val_main_cst_0_apply, v1_apply, Ideal.ofBits_def, ofBits_bot,
    Ideal.maximumf_def]
  exact max_bot_left _

theorem idx_v4_v5 (p : Fin 8) (i j : Fin 2048) : idx_main_v4 (idx_main_v5 (ix3 p i j)) = ix2 p i :=
  funext fun a => Fin.ext (by match a with | ⟨0, _⟩ => rfl | ⟨1, _⟩ => rfl)

theorem v5_apply (x0 x1 : (⟨S8x2048x1024, .f32⟩ : BufTy).Contents (Elt Ideal)) (p : Fin 8) (i j : Fin 2048) :
    val_main_v5 (F := Ideal) x0 x1 (ix3 p i j) = DualSoftmax.rowMax (arrOf x0 p) (arrOf x1 p) i := by
  rw [val_main_v5_apply, val_main_v4_apply, idx_v4_v5, v3_apply]

theorem v7_apply (x0 x1 : (⟨S8x2048x1024, .f32⟩ : BufTy).Contents (Elt Ideal)) (p : Fin 8) (i j : Fin 2048) :
    val_main_v7 (F := Ideal) x0 x1 (ix3 p i j)
      = Ideal.exp (DualSoftmax.e (arrOf x0 p) (arrOf x1 p) i j - DualSoftmax.rowMax (arrOf x0 p) (arrOf x1 p) i) := by
  rw [val_main_v7_apply, val_main_v6_apply, v0_apply, v5_apply, Ideal.subf_def, Ideal.hostUnary_exp_def]

theorem idx_v8 (p : Fin 8) (i : Fin 2048) (k : Fin 2048) : idx_main_v8 (ix2 p i) k = ix3 p i k :=
  funext fun a => Fin.ext (by match a with | ⟨0, _⟩ => rfl | ⟨1, _⟩ => rfl | ⟨2, _⟩ => rfl)

theorem v8_apply (x0 x1 : (⟨S8x2048x1024, .f32⟩ : BufTy).Contents (Elt Ideal)) (p : Fin 8) (i : Fin 2048) :
    val_main_v8 (F := Ideal) x0 x1 (ix2 p i)
      = ∑ j' : Fin 2048, Ideal.exp (DualSoftmax.e (arrOf x0 p) (arrOf x1 p) i j' - DualSoftmax.rowMax (arrOf x0 p) (arrOf x1 p) i) := by
  rw [val_main_v8_apply, val_main_cst_1_apply, Ideal.ofBits_def, Ideal.ofBits_zero_f32, zero_add]
  simp only [idx_v8, v7_apply]

theorem idx_v9_v10 (p : Fin 8) (i j : Fin 2048) : idx_main_v9 (idx_main_v10 (ix3 p i j)) = ix2 p i :=
  funext fun a => Fin.ext (by match a with | ⟨0, _⟩ => rfl | ⟨1, _⟩ => rfl)

theorem v11_apply (x0 x1 : (⟨S8x2048x1024, .f32⟩ : BufTy).Contents (Elt Ideal)) (p : Fin 8) (i j : Fin 2048) :
    val_main_v11 (F := Ideal) x0 x1 (ix3 p i j)
      = Ideal.div (Ideal.exp (DualSoftmax.e (arrOf x0 p) (arrOf x1 p) i j - DualSoftmax.rowMax (arrOf x0 p) (arrOf x1 p) i))
          (∑ j' : Fin 2048, Ideal.exp (DualSoftmax.e (arrOf x0 p) (arrOf x1 p) i j' - DualSoftmax.rowMax (arrOf x0 p) (arrOf x1 p) i)) := by
  rw [val_main_v11_apply, val_main_v10_apply, val_main_v9_apply, idx_v9_v10, v8_apply, v7_apply, Ideal.hostDivf_def]

theorem lidx_v23 (p : Fin 8) (i : Fin 2048) (d : Fin 1024) (k : Fin 2048) : lidx_main_v23 (ix3 p i d) k = ix3 p i k :=
  funext fun a => Fin.ext (by match a with | ⟨0, _⟩ => rfl | ⟨1, _⟩ => rfl | ⟨2, _⟩ => rfl)

theorem ridx_v23 (p : Fin 8) (i : Fin 2048) (d : Fin 1024) (k : Fin 2048) : ridx_main_v23 (ix3 p i d) k = ix3 p k d :=
  funext fun a => Fin.ext (by match a with | ⟨0, _⟩ => rfl | ⟨1, _⟩ => rfl | ⟨2, _⟩ => rfl)

/-- The reference's first result, read at an index, is `rowRes`. -/
theorem v23_apply (x0 x1 : (⟨S8x2048x1024, .f32⟩ : BufTy).Contents (Elt Ideal)) (p : Fin 8) (i : Fin 2048) (d : Fin 1024) :
    val_main_v23 (F := Ideal) x0 x1 (ix3 p i d) = DualSoftmax.rowRes (arrOf x0 p) (arrOf x1 p) i d := by
  rw [val_main_v23_apply]
  simp only [lidx_v23, ridx_v23, v11_apply]
  rfl

theorem v14_apply (x0 x1 : (⟨S8x2048x1024, .f32⟩ : BufTy).Contents (Elt Ideal)) (p : Fin 8) (j : Fin 2048) :
    val_main_v14 (F := Ideal) x0 x1 (ix2 p j) = DualSoftmax.colMax (arrOf x0 p) (arrOf x1 p) j := by
  rw [val_main_v14_apply, val_main_v13_apply, val_main_cst_3_apply, v12_apply, Ideal.ofBits_def, ofBits_bot,
    Ideal.maximumf_def]
  exact max_bot_left _

theorem idx_v15_v16 (p : Fin 8) (i j : Fin 2048) : idx_main_v15 (idx_main_v16 (ix3 p i j)) = ix2 p j :=
  funext fun a => Fin.ext (by match a with | ⟨0, _⟩ => rfl | ⟨1, _⟩ => rfl)

theorem v16_apply (x0 x1 : (⟨S8x2048x1024, .f32⟩ : BufTy).Contents (Elt Ideal)) (p : Fin 8) (i j : Fin 2048) :
    val_main_v16 (F := Ideal) x0 x1 (ix3 p i j) = DualSoftmax.colMax (arrOf x0 p) (arrOf x1 p) j := by
  rw [val_main_v16_apply, val_main_v15_apply, idx_v15_v16, v14_apply]

theorem v18_apply (x0 x1 : (⟨S8x2048x1024, .f32⟩ : BufTy).Contents (Elt Ideal)) (p : Fin 8) (i j : Fin 2048) :
    val_main_v18 (F := Ideal) x0 x1 (ix3 p i j)
      = Ideal.exp (DualSoftmax.e (arrOf x0 p) (arrOf x1 p) i j - DualSoftmax.colMax (arrOf x0 p) (arrOf x1 p) j) := by
  rw [val_main_v18_apply, val_main_v17_apply, v0_apply, v16_apply, Ideal.subf_def, Ideal.hostUnary_exp_def]

theorem idx_v19 (p : Fin 8) (j : Fin 2048) (k : Fin 2048) : idx_main_v19 (ix2 p j) k = ix3 p k j :=
  funext fun a => Fin.ext (by match a with | ⟨0, _⟩ => rfl | ⟨1, _⟩ => rfl | ⟨2, _⟩ => rfl)

theorem v19_apply (x0 x1 : (⟨S8x2048x1024, .f32⟩ : BufTy).Contents (Elt Ideal)) (p : Fin 8) (j : Fin 2048) :
    val_main_v19 (F := Ideal) x0 x1 (ix2 p j)
      = ∑ i' : Fin 2048, Ideal.exp (DualSoftmax.e (arrOf x0 p) (arrOf x1 p) i' j - DualSoftmax.colMax (arrOf x0 p) (arrOf x1 p) j) := by
  rw [val_main_v19_apply, val_main_cst_4_apply, Ideal.ofBits_def, Ideal.ofBits_zero_f32, zero_add]
  simp only [idx_v19, v18_apply]

theorem idx_v20_v21 (p : Fin 8) (i j : Fin 2048) : idx_main_v20 (idx_main_v21 (ix3 p i j)) = ix2 p j :=
  funext fun a => Fin.ext (by match a with | ⟨0, _⟩ => rfl | ⟨1, _⟩ => rfl)

theorem v22_apply (x0 x1 : (⟨S8x2048x1024, .f32⟩ : BufTy).Contents (Elt Ideal)) (p : Fin 8) (i j : Fin 2048) :
    val_main_v22 (F := Ideal) x0 x1 (ix3 p i j)
      = Ideal.div (Ideal.exp (DualSoftmax.e (arrOf x0 p) (arrOf x1 p) i j - DualSoftmax.colMax (arrOf x0 p) (arrOf x1 p) j))
          (∑ i' : Fin 2048, Ideal.exp (DualSoftmax.e (arrOf x0 p) (arrOf x1 p) i' j - DualSoftmax.colMax (arrOf x0 p) (arrOf x1 p) j)) := by
  rw [val_main_v22_apply, val_main_v21_apply, val_main_v20_apply, idx_v20_v21, v19_apply, v18_apply, Ideal.hostDivf_def]

theorem lidx_v24 (p : Fin 8) (j : Fin 2048) (d : Fin 1024) (k : Fin 2048) : lidx_main_v24 (ix3 p j d) k = ix3 p k j :=
  funext fun a => Fin.ext (by match a with | ⟨0, _⟩ => rfl | ⟨1, _⟩ => rfl | ⟨2, _⟩ => rfl)

theorem ridx_v24 (p : Fin 8) (j : Fin 2048) (d : Fin 1024) (k : Fin 2048) : ridx_main_v24 (ix3 p j d) k = ix3 p k d :=
  funext fun a => Fin.ext (by match a with | ⟨0, _⟩ => rfl | ⟨1, _⟩ => rfl | ⟨2, _⟩ => rfl)

/-- Its second result, read at an index, is `colRes`. -/
theorem v24_apply (x0 x1 : (⟨S8x2048x1024, .f32⟩ : BufTy).Contents (Elt Ideal)) (p : Fin 8) (j : Fin 2048) (d : Fin 1024) :
    val_main_v24 (F := Ideal) x0 x1 (ix3 p j d) = DualSoftmax.colRes (arrOf x0 p) (arrOf x1 p) j d := by
  rw [val_main_v24_apply]
  simp only [lidx_v24, ridx_v24, v22_apply]
  rfl

end Cert.ReferenceIdeal.RefValue

end
-- ==== Proof.Finite.lean ====
import proofs.«413194_j57758720196677_3_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

local instance : Subsingleton S_.Idx := ⟨fun a b => funext fun d => d.elim0⟩

theorem top_word : Ideal.ofBits .f32 0x7F800000#32 = (⊤ : EReal) := by simp [Ideal.ofBits, Ideal.ieee]

theorem lt_of_cmp_olt {x y : EReal} (h : Ideal.cmp .olt x y = 1#1) : x < y := by
  unfold Ideal.cmp at h
  by_contra hn
  simp [hn] at h

theorem real_of_abs_lt_top (x : EReal) (h : max x (-x) < ⊤) : ∃ r : ℝ, x = (r : EReal) := by
  induction x using EReal.rec with
  | bot => simp at h
  | coe r => exact ⟨r, rfl⟩
  | top => simp at h

theorem entry_real [Cert.Pre_finite_inputs.Facts] (x : FVec Ideal S8x2048x1024 .f32) (j : S8x2048x1024.Idx)
    (h : cmpf (F := Ideal) .olt (Host.absf x)
        (broadcastInDim S8x2048x1024 ![] Facts.bcast_S_S8x2048x1024 (constant (F := Ideal) S_ .f32 0x7F800000#32)) j = 1#1) :
    ∃ r : ℝ, x j = (r : EReal) := by
  have h1 : Ideal.cmp .olt (max (x j) (-(x j))) (Ideal.ofBits .f32 0x7F800000#32) = 1#1 := h
  rw [top_word] at h1
  exact real_of_abs_lt_top _ (lt_of_cmp_olt h1)

/-- Under the precondition every entry of both inputs is a real number. -/
theorem real_of_fn [Cert.Pre_finite_inputs.Facts] (x0 x1 : FVec Ideal S8x2048x1024 .f32)
    (h : Cert.Pre_finite_inputs.fn (F := Ideal) x0 x1 = fun _ => 1#1) :
    (∀ j : S8x2048x1024.Idx, ∃ r : ℝ, x0 j = (r : EReal)) ∧ (∀ j : S8x2048x1024.Idx, ∃ r : ℝ, x1 j = (r : EReal)) := by
  have h0 := congrFun h ValueIdx.ix0
  dsimp only [fn] at h0
  change IntOp.andi _ _ = 1#1 at h0
  obtain ⟨h3, h7⟩ := IntOp.andi_eq_one.1 h0
  exact ⟨fun j => entry_real x0 j (Host.reduce_andi_all _ _ _ _ _ h3 j),
    fun j => entry_real x1 j (Host.reduce_andi_all _ _ _ _ _ h7 j)⟩

end Cert.Pre_finite_inputs.Finite

end
-- ==== Proof.lean ====
import proofs.«413194_j57758720196677_3_alg».proof.Defs
import proofs.«413194_j57758720196677_3_alg».proof.Proof.Gen.Kernel
import proofs.«413194_j57758720196677_3_alg».proof.Proof.Gen.KernelIdeal
import proofs.«413194_j57758720196677_3_alg».proof.Proof.Gen.ReferenceIdeal
import proofs.«413194_j57758720196677_3_alg».proof.Proof.Gen.Pre_finite_inputs
import proofs.«413194_j57758720196677_3_alg».proof.Proof.Gen.ReferenceIdeal.Run
import proofs.«413194_j57758720196677_3_alg».proof.Proof.Gen.ReferenceIdeal.Read
import proofs.«413194_j57758720196677_3_alg».proof.Proof.BodyKernel.Frame
import proofs.«413194_j57758720196677_3_alg».proof.Proof.BodyKernelIdeal.Frame
import proofs.«413194_j57758720196677_3_alg».proof.Proof.KIValue
import proofs.«413194_j57758720196677_3_alg».proof.Proof.RefSide
import proofs.«413194_j57758720196677_3_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Body.frame m ρ

theorem frame_ki : Cert.frame_KernelIdeal := fun m ρ _ => Cert.KernelIdeal.Body.frame m ρ

/-- The reference is host operations only: its run, the values forgotten, is its frame. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Narrowing to bf16 and widening back is the identity on extended reals, at both places. -/
theorem preserves : Cert.preserves_Kernel_KernelIdeal :=
  ⟨IdealRules.truncf_extf.statement _ .f32 .bf16, IdealRules.truncf_extf.statement _ .f32 .bf16⟩

/-- Both programs end at `G0` and `G1` of arguments that agree. -/
theorem algebraic : Cert.algebraic_KernelIdeal_ReferenceIdeal := by
  intro m ρ m' ρ' hpre hagree
  refine ⟨fun c => DualSoftmax.G0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => DualSoftmax.G1 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact Cert.KernelIdeal.RunValue.run_values m ρ
      (fun c => (Cert.Pre_finite_inputs.Finite.real_of_fn _ _ (hpre c)).1)
      (fun c => (Cert.Pre_finite_inputs.Finite.real_of_fn _ _ (hpre c)).2)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.ReferenceIdeal.Read.val_main_v23_eq, (hagree c).1, (hagree c).2]
      funext j
      rw [eq_ix3 j]
      exact Cert.ReferenceIdeal.RefValue.v23_apply _ _ _ _ _
    · rw [(h c).2.1, Cert.ReferenceIdeal.Read.val_main_v24_eq, (hagree c).1, (hagree c).2]
      funext j
      rw [eq_ix3 j]
      exact Cert.ReferenceIdeal.RefValue.v24_apply _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
